-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x3 : S_.BroadcastsInDim S8x3 (![] : Fin 0 → Fin S8x3.rank)
  reducesTo_S8x3_S_d0_1 : S8x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S8x3 .f32) (main_arg10 : FVec F S3 .f32) (main_v33 : IVec S_ 1) : IVec S_ 1 :=
  let main_v34 : FVec F S8x3 .f32 := Host.absf main_arg9
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S16 .f32) (main_arg7 : FVec F S16x8 .f32) (main_arg8 : FVec F S8 .f32) (main_arg9 : FVec F S8x3 .f32) (main_arg10 : FVec F S3 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg7
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg9 main_arg10 main_v33

def fn {F : FTy → Type} [FloatOps F] (main_arg0 : FVec F S100000x3 .f32) (main_arg1 : IVec S2x3200000 32) (main_arg2 : IVec S100000 32) (main_arg3 : FVec F S3x32 .f32) (main_arg4 : FVec F S32 .f32) (main_arg5 : FVec F S32x16 .f32) (main_arg6 : FVec F S16 .f32) (main_arg7 : FVec F S16x8 .f32) (main_arg8 : FVec F S8 .f32) (main_arg9 : FVec F S8x3 .f32) (main_arg10 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg5
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg6 main_arg7 main_arg8 main_arg9 main_arg10 main_v13 main_v16
-- ==== Kernel.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x32 : Shape := ⟨2, ![100000, 32]⟩
abbrev S4000x3 : Shape := ⟨2, ![4000, 3]⟩
abbrev S4000x1 : Shape := ⟨2, ![4000, 1]⟩
abbrev S4000x32 : Shape := ⟨2, ![4000, 32]⟩
abbrev S3300000x32 : Shape := ⟨2, ![3300000, 32]⟩
abbrev S1x32 : Shape := ⟨2, ![1, 32]⟩
abbrev S100000x16 : Shape := ⟨2, ![100000, 16]⟩
abbrev S4000x16 : Shape := ⟨2, ![4000, 16]⟩
abbrev S3300000x16 : Shape := ⟨2, ![3300000, 16]⟩
abbrev S1x16 : Shape := ⟨2, ![1, 16]⟩
abbrev S100000x8 : Shape := ⟨2, ![100000, 8]⟩
abbrev S4000x8 : Shape := ⟨2, ![4000, 8]⟩
abbrev S3300000x8 : Shape := ⟨2, ![3300000, 8]⟩
abbrev S1x8 : Shape := ⟨2, ![1, 8]⟩
abbrev S128x9 : Shape := ⟨2, ![128, 9]⟩
abbrev S5000x8 : Shape := ⟨2, ![5000, 8]⟩
abbrev S5000x1 : Shape := ⟨2, ![5000, 1]⟩
abbrev S5000x128 : Shape := ⟨2, ![5000, 128]⟩
abbrev S5000x9 : Shape := ⟨2, ![5000, 9]⟩
abbrev S64x8 : Shape := ⟨2, ![64, 8]⟩
abbrev S64x1 : Shape := ⟨2, ![64, 1]⟩
abbrev S64x3 : Shape := ⟨2, ![64, 3]⟩
abbrev S1x3 : Shape := ⟨2, ![1, 3]⟩

abbrev nBuf : Space → Nat
  | .hbm => 118
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x8, .f32⟩
  | .hbm, ⟨8, _⟩ => ⟨S8, .f32⟩
  | .hbm, ⟨9, _⟩ => ⟨S8x3, .f32⟩
  | .hbm, ⟨10, _⟩ => ⟨S3, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S100000, .i32⟩
  | .hbm, ⟨16, _⟩ => ⟨S3300000, .i32⟩
  | .hbm, ⟨17, _⟩ => ⟨S3300000, .i32⟩
  | .hbm, ⟨18, _⟩ => ⟨S_, .f32⟩
  | .hbm, ⟨19, _⟩ => ⟨S3300000, .f32⟩
  | .hbm, ⟨20, _⟩ => ⟨S_, .f32⟩
  | .hbm, ⟨21, _⟩ => ⟨S100000, .f32⟩
  | .hbm, ⟨22, _⟩ => ⟨S3300000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .i32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000, .i32⟩
  | .hbm, ⟨56, _⟩ => ⟨S100000x1, .f32⟩
  | .hbm, ⟨57, _⟩ => ⟨S100000x32, .bf16⟩
  | .hbm, ⟨58, _⟩ => ⟨S_, .i32⟩
  | .hbm, ⟨59, _⟩ => ⟨S3300000, .i32⟩
  | .hbm, ⟨60, _⟩ => ⟨S3300000, .i1⟩
  | .hbm, ⟨61, _⟩ => ⟨S_, .i32⟩
  | .hbm, ⟨62, _⟩ => ⟨S3300000, .i32⟩
  | .hbm, ⟨63, _⟩ => ⟨S3300000, .i32⟩
  | .hbm, ⟨64, _⟩ => ⟨S3300000, .i32⟩
  | .hbm, ⟨65, _⟩ => ⟨S3300000x1, .i32⟩
  | .hbm, ⟨66, _⟩ => ⟨S3300000x32, .bf16⟩
  | .hbm, ⟨67, _⟩ => ⟨S3300000x32, .f32⟩
  | .hbm, ⟨68, _⟩ => ⟨S_, .f32⟩
  | .hbm, ⟨69, _⟩ => ⟨S100000x32, .f32⟩
  | .hbm, ⟨70, _⟩ => ⟨S3300000x1, .i32⟩
  | .hbm, ⟨71, _⟩ => ⟨S100000x32, .f32⟩
  | .hbm, ⟨72, _⟩ => ⟨S1x32, .f32⟩
  | .hbm, ⟨73, _⟩ => ⟨S100000x16, .bf16⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x16, .bf16⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x8, .bf16⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x8, .bf16⟩
  | .hbm, ⟨99, _⟩ => ⟨S3300000x8, .f32⟩
  | .hbm, ⟨100, _⟩ => ⟨S_, .f32⟩
  | .hbm, ⟨101, _⟩ => ⟨S100000x8, .f32⟩
  | .hbm, ⟨102, _⟩ => ⟨S3300000x1, .i32⟩
  | .hbm, ⟨103, _⟩ => ⟨S100000x8, .f32⟩
  | .hbm, ⟨104, _⟩ => ⟨S100000x1, .i32⟩
  | .hbm, ⟨105, _⟩ => ⟨S1x8, .f32⟩
  | .hbm, ⟨106, _⟩ => ⟨S128x9, .f32⟩
  | .hbm, ⟨107, _⟩ => ⟨S64x8, .f32⟩
  | .hbm, ⟨108, _⟩ => ⟨S64x1, .f32⟩
  | .hbm, ⟨109, _⟩ => ⟨S_, .f32⟩
  | .hbm, ⟨110, _⟩ => ⟨S64x1, .f32⟩
  | .hbm, ⟨111, _⟩ => ⟨S64x1, .f32⟩
  | .hbm, ⟨112, _⟩ => ⟨S64x8, .f32⟩
  | .hbm, ⟨113, _⟩ => ⟨S64x8, .f32⟩
  | .hbm, ⟨114, _⟩ => ⟨S64x3, .f32⟩
  | .hbm, ⟨115, _⟩ => ⟨S1x3, .f32⟩
  | .hbm, ⟨116, _⟩ => ⟨S64x3, .f32⟩
  | .hbm, ⟨117, _⟩ => ⟨S64x3, .f32⟩
  | .local _ .vmem, ⟨0, _⟩ => ⟨S4000x3, .f32⟩
  | .local _ .vmem, ⟨1, _⟩ => ⟨S4000x3, .f32⟩
  | .local _ .vmem, ⟨2, _⟩ => ⟨S4000x1, .f32⟩
  | .local _ .vmem, ⟨3, _⟩ => ⟨S4000x1, .f32⟩
  | .local _ .vmem, ⟨4, _⟩ => ⟨S3x32, .f32⟩
  | .local _ .vmem, ⟨5, _⟩ => ⟨S4000x32, .bf16⟩
  | .local _ .vmem, ⟨6, _⟩ => ⟨S4000x32, .bf16⟩
  | .local _ .vmem, ⟨7, _⟩ => ⟨S4000x32, .f32⟩
  | .local _ .vmem, ⟨8, _⟩ => ⟨S4000x32, .f32⟩
  | .local _ .vmem, ⟨9, _⟩ => ⟨S4000x1, .f32⟩
  | .local _ .vmem, ⟨10, _⟩ => ⟨S4000x1, .f32⟩
  | .local _ .vmem, ⟨11, _⟩ => ⟨S1x32, .f32⟩
  | .local _ .vmem, ⟨12, _⟩ => ⟨S32x16, .f32⟩
  | .local _ .vmem, ⟨13, _⟩ => ⟨S4000x16, .bf16⟩
  | .local _ .vmem, ⟨14, _⟩ => ⟨S4000x16, .bf16⟩
  | .local _ .vmem, ⟨15, _⟩ => ⟨S4000x16, .f32⟩
  | .local _ .vmem, ⟨16, _⟩ => ⟨S4000x16, .f32⟩
  | .local _ .vmem, ⟨17, _⟩ => ⟨S4000x1, .f32⟩
  | .local _ .vmem, ⟨18, _⟩ => ⟨S4000x1, .f32⟩
  | .local _ .vmem, ⟨19, _⟩ => ⟨S1x16, .f32⟩
  | .local _ .vmem, ⟨20, _⟩ => ⟨S16x8, .f32⟩
  | .local _ .vmem, ⟨21, _⟩ => ⟨S4000x8, .bf16⟩
  | .local _ .vmem, ⟨22, _⟩ => ⟨S4000x8, .bf16⟩
  | .local _ .vmem, ⟨23, _⟩ => ⟨S5000x8, .f32⟩
  | .local _ .vmem, ⟨24, _⟩ => ⟨S5000x8, .f32⟩
  | .local _ .vmem, ⟨25, _⟩ => ⟨S5000x1, .f32⟩
  | .local _ .vmem, ⟨26, _⟩ => ⟨S5000x1, .f32⟩
  | .local _ .vmem, ⟨27, _⟩ => ⟨S1x8, .f32⟩
  | .local _ .vmem, ⟨28, _⟩ => ⟨S5000x1, .i32⟩
  | .local _ .vmem, ⟨29, _⟩ => ⟨S5000x1, .i32⟩
  | .local _ .vmem, ⟨30, _⟩ => ⟨S128x9, .f32⟩
  | .local _ .vmem, ⟨31, _⟩ => ⟨S128x9, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_call1_v0 : Ref sig .tc := ⟨.hbm, 35, rfl⟩
abbrev main_call1_v1_0 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x8 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v32 : BitVec 1 := Scalar.cmpi .eq arg0 c19_i32
  let v33 : BitVec 32 := Scalar.extui v32
  let c0_i32_14 : BitVec 32 := 0#32
  let v34 : BitVec 1 := Scalar.cmpi .ne v33 c0_i32_14
  v34

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x9 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x3_S4000x3_0_0 : ∀ a, (![0, 0] : Fin 2 → Nat) a + S4000x3.size a ≤ S4000x3.size a
  h_S4000x3 : 0 < S4000x3.numel
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S32_S1x32 : S32.ShapeCasts S1x32
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x16_S32x16_0_0 : ∀ a, (![0, 0] : Fin 2 → Nat) a + S32x16.size a ≤ S32x16.size a
  h_S32x16 : 0 < S32x16.numel
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  packedbf16_S4000x16_S4000x16_0_0 : (Rect.unit (s := S4000x16) ![0, 0] S4000x16.size inb_S4000x16_S4000x16_0_0).PackedRows (EltTy.packing .bf16)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x8_S16x8_0_0 : ∀ a, (![0, 0] : Fin 2 → Nat) a + S16x8.size a ≤ S16x8.size a
  h_S16x8 : 0 < S16x8.numel
  broadcasts_S4000x1_S4000x8 : S4000x1.Broadcasts S4000x8
  inb_S4000x8_S4000x8_0_0 : ∀ a, (![0, 0] : Fin 2 → Nat) a + S4000x8.size a ≤ S4000x8.size a
  h_S4000x8 : 0 < S4000x8.numel
  packedbf16_S4000x8_S4000x8_0_0 : (Rect.unit (s := S4000x8) ![0, 0] S4000x8.size inb_S4000x8_S4000x8_0_0).PackedRows (EltTy.packing .bf16)
  bcast_S_S100000x8 : S_.BroadcastsInDim S100000x8 (![] : Fin 0 → Fin S100000x8.rank)
  shapeCasts_S8_S1x8 : S8.ShapeCasts S1x8
  inb_S128x9_S128x9_0_0 : ∀ a, (![0, 0] : Fin 2 → Nat) a + S128x9.size a ≤ S128x9.size a
  h_S128x9 : 0 < S128x9.numel
  shapeCasts_S128x9_S128x9 : S128x9.ShapeCasts S128x9
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  iota_S5000x128_d1_w32 : S5000x128.Iotas .tc 32 [1]
  broadcasts_S5000x1_S5000x128 : S5000x1.Broadcasts S5000x128
  natLt_1_32 : 1 < 32
  concatenates_S5000x8_S5000x1_S5000x9_d1 : Shape.Concatenates [S5000x8, S5000x1] S5000x9 1
  slices_S128x9_S64x8_0_0 : S128x9.Slices ![0, 0] S64x8
  slices_S128x9_S64x1_0_8 : S128x9.Slices ![0, 8] S64x1
  bcast_S_S64x1 : S_.BroadcastsInDim S64x1 (![] : Fin 0 → Fin S64x1.rank)
  bcast_S64x1_S64x8_0_1 : S64x1.BroadcastsInDim S64x8 (![0, 1] : Fin 2 → Fin S64x8.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S3300000x1_S3300000_n_0_0_1_wf : ScatterDims.WF S100000 S3300000x1 S3300000 [] [0] [0] 1
  gather_S3300000_S3300000x1_S3300000_n_0_n_n_0_1_1_wf : GatherDims.WF S3300000 S3300000x1 S3300000 [] [0] [] [0] [] 1 ![1]
  dot_S4000x3_S3x32_S4000x32_1_0_0_1_n_n_wf : DotDims.WF S4000x3 S3x32 S4000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S4000x32_S32x16_S4000x16_1_0_0_1_n_n_wf : DotDims.WF S4000x32 S32x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x8_S4000x8_1_0_0_1_n_n_wf : DotDims.WF S4000x16 S16x8 S4000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S5000x128_S5000x9_S128x9_0_0_1_1_n_n_wf : DotDims.WF S5000x128 S5000x9 S128x9 [0] [0] [1] [1] [] []
  dot_S64x8_S8x3_S64x3_1_0_0_1_n_n_wf : DotDims.WF S64x8 S8x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S100000x32.size a
  hwx0_3 : ∀ i : grid0.Coords, EltTy.bits .bf16 = 32 ∨ (Rect.block (s := S100000x32) S4000x32.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x16.size a ≤ S100000x16.size a
  hwx1_4 : ∀ i : grid1.Coords, EltTy.bits .bf16 = 32 ∨ (Rect.block (s := S100000x16) S4000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x8.size a ≤ S16x8.size a
  hwx2_3 : ∀ i : grid2.Coords, EltTy.bits .f32 = 32 ∨ (Rect.block (s := S16x8) S16x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x8.size a ≤ S100000x8.size a
  hwx2_4 : ∀ i : grid2.Coords, EltTy.bits .bf16 = 32 ∨ (Rect.block (s := S100000x8) S4000x8.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x9.size a ≤ S128x9.size a
  hwx3_4 : ∀ i : grid3.Coords, EltTy.bits .f32 = 32 ∨ (Rect.block (s := S128x9) S128x9.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def comparator_i32_i32_d0 : BitVec 32 × BitVec 32 → BitVec 32 × BitVec 32 → BitVec 1 :=
  fun l r =>
    let v2 := IntOp.cmpi .slt l.1 r.1
    v2
def gather_S3300000_S3300000x1_S3300000_n_0_n_n_0_1_1 : GatherDims S3300000 S3300000x1 S3300000 where
  offsetDims := []
  collapsedSliceDims := [0]
  operandBatchingDims := []
  startIndicesBatchingDims := []
  startIndexMap := [0]
  indexVectorDim := 1
  sliceSizes := ![1]
  wf := gather_S3300000_S3300000x1_S3300000_n_0_n_n_0_1_1_wf
def dot_S4000x3_S3x32_S4000x32_1_0_0_1_n_n : DotDims S4000x3 S3x32 S4000x32 where
  lhsContracting := [1]
  rhsContracting := [0]
  lhsNonContracting := [0]
  rhsNonContracting := [1]
  lhsBatch := []
  rhsBatch := []
  wf := dot_S4000x3_S3x32_S4000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S5000x128_S5000x9_S128x9_0_0_1_1_n_n : DotDims S5000x128 S5000x9 S128x9 where
  lhsContracting := [0]
  rhsContracting := [0]
  lhsNonContracting := [1]
  rhsNonContracting := [1]
  lhsBatch := []
  rhsBatch := []
  wf := dot_S5000x128_S5000x9_S128x9_0_0_1_1_n_n_wf
def dot_S64x8_S8x3_S64x3_1_0_0_1_n_n : DotDims S64x8 S8x3 S64x3 where
  lhsContracting := [1]
  rhsContracting := [0]
  lhsNonContracting := [0]
  rhsNonContracting := [1]
  lhsBatch := []
  rhsBatch := []
  wf := dot_S64x8_S8x3_S64x3_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S4000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S16x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S4000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v70) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v73) S128x9.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x3 : Shape := ⟨2, ![8, 3]⟩
abbrev S3 : Shape := ⟨1, ![3]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 229
  | .vmem => 0
  | .smem => 0
  | _ => 0

abbrev hbmTy0_0 (i : Nat) : BufTy := match i % 128 with
  | 0 => ⟨S100000x3, .f32⟩
  | 1 => ⟨S2x3200000, .i32⟩
  | 2 => ⟨S100000, .i32⟩
  | 3 => ⟨S3x32, .f32⟩
  | 4 => ⟨S32, .f32⟩
  | 5 => ⟨S32x16, .f32⟩
  | 6 => ⟨S16, .f32⟩
  | 7 => ⟨S16x8, .f32⟩
  | 8 => ⟨S8, .f32⟩
  | 9 => ⟨S8x3, .f32⟩
  | 10 => ⟨S3, .f32⟩
  | 11 => ⟨S100000, .i32⟩
  | 12 => ⟨S1x3200000, .i32⟩
  | 13 => ⟨S3200000, .i32⟩
  | 14 => ⟨S3300000, .i32⟩
  | 15 => ⟨S1x3200000, .i32⟩
  | 16 => ⟨S3200000, .i32⟩
  | 17 => ⟨S3300000, .i32⟩
  | 18 => ⟨S_, .f32⟩
  | 19 => ⟨S3300000, .f32⟩
  | 20 => ⟨S_, .f32⟩
  | 21 => ⟨S100000, .f32⟩
  | 22 => ⟨S3300000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x32, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x32, .f32⟩
  | 64 => ⟨S3300000x1, .f32⟩
  | 65 => ⟨S3300000x32, .f32⟩
  | 66 => ⟨S3300000x32, .f32⟩
  | 67 => ⟨S_, .f32⟩
  | 68 => ⟨S100000x32, .f32⟩
  | 69 => ⟨S3300000x1, .i32⟩
  | 70 => ⟨S100000x32, .f32⟩
  | 71 => ⟨S1x32, .f32⟩
  | 72 => ⟨S100000x32, .f32⟩
  | 73 => ⟨S100000x32, .f32⟩
  | 74 => ⟨S_, .f32⟩
  | 75 => ⟨S100000x32, .f32⟩
  | 76 => ⟨S100000x32, .f32⟩
  | 77 => ⟨S100000, .i32⟩
  | 78 => ⟨S1x3200000, .i32⟩
  | 79 => ⟨S3200000, .i32⟩
  | 80 => ⟨S3300000, .i32⟩
  | 81 => ⟨S1x3200000, .i32⟩
  | 82 => ⟨S3200000, .i32⟩
  | 83 => ⟨S3300000, .i32⟩
  | 84 => ⟨S_, .f32⟩
  | 85 => ⟨S3300000, .f32⟩
  | 86 => ⟨S_, .f32⟩
  | 87 => ⟨S100000, .f32⟩
  | 88 => ⟨S3300000x1, .i32⟩
  | 89 => ⟨S100000, .f32⟩
  | 90 => ⟨S_, .f32⟩
  | 91 => ⟨S100000, .f32⟩
  | 92 => ⟨S100000, .i1⟩
  | 93 => ⟨S_, .f32⟩
  | 94 => ⟨S100000, .f32⟩
  | 95 => ⟨S100000, .f32⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000, .f32⟩
  | 119 => ⟨S3300000, .f32⟩
  | 120 => ⟨S100000x16, .f32⟩
  | 121 => ⟨S_, .i32⟩
  | 122 => ⟨S3300000, .i32⟩
  | 123 => ⟨S3300000, .i1⟩
  | 124 => ⟨S_, .i32⟩
  | 125 => ⟨S3300000, .i32⟩
  | 126 => ⟨S3300000, .i32⟩
  | 127 => ⟨S3300000, .i32⟩
  | _ => ⟨S100000x3, .f32⟩

abbrev hbmTy0_1 (i : Nat) : BufTy := match i % 128 with
  | 0 => ⟨S3300000x1, .i32⟩
  | 1 => ⟨S3300000x16, .f32⟩
  | 2 => ⟨S3300000x1, .f32⟩
  | 3 => ⟨S3300000x16, .f32⟩
  | 4 => ⟨S3300000x16, .f32⟩
  | 5 => ⟨S_, .f32⟩
  | 6 => ⟨S100000x16, .f32⟩
  | 7 => ⟨S3300000x1, .i32⟩
  | 8 => ⟨S100000x16, .f32⟩
  | 9 => ⟨S1x16, .f32⟩
  | 10 => ⟨S100000x16, .f32⟩
  | 11 => ⟨S100000x16, .f32⟩
  | 12 => ⟨S_, .f32⟩
  | 13 => ⟨S100000x16, .f32⟩
  | 14 => ⟨S100000x16, .f32⟩
  | 15 => ⟨S100000, .i32⟩
  | 16 => ⟨S1x3200000, .i32⟩
  | 17 => ⟨S3200000, .i32⟩
  | 18 => ⟨S3300000, .i32⟩
  | 19 => ⟨S1x3200000, .i32⟩
  | 20 => ⟨S3200000, .i32⟩
  | 21 => ⟨S3300000, .i32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x8, .f32⟩
  | 59 => ⟨S_, .i32⟩
  | 60 => ⟨S3300000, .i32⟩
  | 61 => ⟨S3300000, .i1⟩
  | 62 => ⟨S_, .i32⟩
  | 63 => ⟨S3300000, .i32⟩
  | 64 => ⟨S3300000, .i32⟩
  | 65 => ⟨S3300000, .i32⟩
  | 66 => ⟨S3300000x1, .i32⟩
  | 67 => ⟨S3300000x8, .f32⟩
  | 68 => ⟨S3300000x1, .f32⟩
  | 69 => ⟨S3300000x8, .f32⟩
  | 70 => ⟨S3300000x8, .f32⟩
  | 71 => ⟨S_, .f32⟩
  | 72 => ⟨S100000x8, .f32⟩
  | 73 => ⟨S3300000x1, .i32⟩
  | 74 => ⟨S100000x8, .f32⟩
  | 75 => ⟨S1x8, .f32⟩
  | 76 => ⟨S100000x8, .f32⟩
  | 77 => ⟨S100000x8, .f32⟩
  | 78 => ⟨S_, .f32⟩
  | 79 => ⟨S100000x8, .f32⟩
  | 80 => ⟨S100000x8, .f32⟩
  | 81 => ⟨S_, .f32⟩
  | 82 => ⟨S64x8, .f32⟩
  | 83 => ⟨S100000x1, .i32⟩
  | 84 => ⟨S64x8, .f32⟩
  | 85 => ⟨S_, .f32⟩
  | 86 => ⟨S100000, .f32⟩
  | 87 => ⟨S_, .f32⟩
  | 88 => ⟨S64, .f32⟩
  | 89 => ⟨S100000x1, .i32⟩
  | 90 => ⟨S64, .f32⟩
  | 91 => ⟨S_, .f32⟩
  | 92 => ⟨S64, .f32⟩
  | 93 => ⟨S64, .f32⟩
  | 94 => ⟨S64x1, .f32⟩
  | 95 => ⟨S64x8, .f32⟩
  | 96 => ⟨S64x8, .f32⟩
  | 97 => ⟨S64x3, .f32⟩
  | 98 => ⟨S1x3, .f32⟩
  | 99 => ⟨S64x3, .f32⟩
  | 100 => ⟨S64x3, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_19 : Ref sig .tc := ⟨.hbm, 121, rfl⟩
abbrev main_v83 : Ref sig .tc := ⟨.hbm, 122, rfl⟩
abbrev main_v84 : Ref sig .tc := ⟨.hbm, 123, rfl⟩
abbrev main_c_20 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call3_cst : Ref sig .tc := ⟨.hbm, 140, rfl⟩
abbrev main_call3_v0 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_cst_23 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_24 : Ref sig .tc := ⟨.hbm, 156, rfl⟩
abbrev main_v111 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_26 : Ref sig .tc := ⟨.hbm, 163, rfl⟩
abbrev main_call4_v0 : Ref sig .tc := ⟨.hbm, 164, rfl⟩
abbrev main_call4_v1 : Ref sig .tc := ⟨.hbm, 165, rfl⟩
abbrev main_v116 : Ref sig .tc := ⟨.hbm, 166, rfl⟩
abbrev main_c_27 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_29 : Ref sig .tc := ⟨.hbm, 176, rfl⟩
abbrev main_v124 : Ref sig .tc := ⟨.hbm, 177, rfl⟩
abbrev main_v125 : Ref sig .tc := ⟨.hbm, 178, rfl⟩
abbrev main_c_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_31 : Ref sig .tc := ⟨.hbm, 187, rfl⟩
abbrev main_v133 : Ref sig .tc := ⟨.hbm, 188, rfl⟩
abbrev main_v134 : Ref sig .tc := ⟨.hbm, 189, rfl⟩
abbrev main_c_32 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_33 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_call5_cst : Ref sig .tc := ⟨.hbm, 206, rfl⟩
abbrev main_call5_v0 : Ref sig .tc := ⟨.hbm, 207, rfl⟩
abbrev main_v149 : Ref sig .tc := ⟨.hbm, 208, rfl⟩
abbrev main_cst_34 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_cst_35 : Ref sig .tc := ⟨.hbm, 213, rfl⟩
abbrev main_v153 : Ref sig .tc := ⟨.hbm, 214, rfl⟩
abbrev main_cst_36 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_37 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x32_S100000x32_1_0_0_1_n_n_wf : DotDims.WF S100000x3 S3x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  dot_S64x8_S8x3_S64x3_1_0_0_1_n_n_wf : DotDims.WF S64x8 S8x3 S64x3 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x8_S8x3_S64x3_1_0_0_1_n_n : DotDims S64x8 S8x3 S64x3 where
  lhsContracting := [1]
  rhsContracting := [0]
  lhsNonContracting := [0]
  rhsNonContracting := [1]
  lhsBatch := []
  rhsBatch := []
  wf := dot_S64x8_S8x3_S64x3_1_0_0_1_n_n_wf

class Facts : Prop extends Facts₀ where

variable [Facts]
-- ==== Proof.Kb.Region0.lean ====
import proofs.«414465_j87909390615182_2_alg».proof.Proof.Gen.Kernel.Launch
import proofs.«414465_j87909390615182_2_alg».proof.Proof.Gen.Kernel.Skeleton
import proofs.«414465_j87909390615182_2_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x3 := Rect.unit (s := S4000x3) ![0, 0] S4000x3.size inb_S4000x3_S4000x3_0_0
abbrev r0_1 : Rect S3x32 := Rect.unit (s := S3x32) ![0, 0] S3x32.size inb_S3x32_S3x32_0_0
abbrev r0_2 : Rect S4000x1 := Rect.unit (s := S4000x1) ![0, 0] S4000x1.size inb_S4000x1_S4000x1_0_0
abbrev r0_3 : Rect S4000x32 := Rect.unit (s := S4000x32) ![0, 0] S4000x32.size inb_S4000x32_S4000x32_0_0

def out0_3 (x0 : Vec F S4000x3 .f32) (x1 : Vec F S4000x1 .f32) (x2 : Vec F S3x32 .f32) : Vec F S4000x32 .bf16 :=
  View.canon [⟨r0_3, k0_pay1 (View.ld x0 r0_0) (View.ld x2 r0_1) (View.ld x1 r0_2)⟩]

-- The body loads every input whole and stores the payload of what it loaded over the whole output.
theorem sound_kernel0 {E i} (arg1 : Memref sig .tc .vmem S4000x3 .f32) (harg1 : arg1.IsWhole) (arg2 : Memref sig .tc .vmem S4000x1 .f32) (harg2 : arg2.IsWhole) (arg3 : Memref sig .tc .vmem S3x32 .f32) (harg3 : arg3.IsWhole) (arg4 : Memref sig .tc .vmem S4000x32 .bf16) (harg4 : arg4.IsWhole)
    {x0 x1 x2 d} (K : PUnit → sProp 𝕄) :
    iprop(owns c.tc arg1 fullShare x0 ∗ owns c.tc arg2 fullShare x1 ∗ owns c.tc arg3 fullShare x2 ∗ owns c.tc arg4 fullShare d
        ∗ (iprop(owns c.tc arg1 fullShare x0 ∗ owns c.tc arg2 fullShare x1 ∗ owns c.tc arg3 fullShare x2 ∗ owns c.tc arg4 fullShare (out0_3 x0 x1 x2)) -∗ K ⟨⟩))
      ⊢ wp frame (wpE (defs₀ (F := F)) Variants.none c none) E (cc0__matmul_dis_kernel i arg1 harg1 arg2 harg2 arg3 harg3 arg4 harg4) K := by
  simp only [cc0__matmul_dis_kernel_eq_skeleton]; unfold cc0__matmul_dis_kernel_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S4000x32.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) : (dat0 V c).after 3 t = out0_3 (iblk0 V c 0 t) (iblk0 V c 1 t) (iblk0 V c 2 t) := by
  dsimp only [dat0]

theorem Phi0 (t : Fin (cfg0.N + 1)) : (dat0 V c).Φ t = Pipeline.ΦA spec0 c := rfl

-- Holds because the body leaves every input block as it found it.
theorem before0_0 : ∀ t d, (dat0 V c).before 0 t d = iblk0 V c 0 t :=
  (dat0 V c).before_in_eq_fetched 0 rfl (fun _ => rfl) (fun _ _ _ => rfl) fun _ => rfl
theorem before0_1 : ∀ t d, (dat0 V c).before 1 t d = iblk0 V c 1 t :=
  (dat0 V c).before_in_eq_fetched 1 rfl (fun _ => rfl) (fun _ _ _ => rfl) fun _ => rfl
theorem before0_2 : ∀ t d, (dat0 V c).before 2 t d = iblk0 V c 2 t :=
  (dat0 V c).before_in_eq_fetched 2 rfl (fun _ => rfl) (fun _ _ _ => rfl) fun _ => rfl

-- The body's triple at the input blocks of point `t`; everything else is framed.
theorem body_obligation0 : BodyObligation (dat0 (F := F) V c) (defs₀ (F := F)) Variants.none () Set.univ := fun t => by
  simp only [bigSep_W0, before0_0, before0_1, before0_2]
  dsimp only [dat0, Dat.owesAt, Dat.bound]
  sl_whnfR [defs₀, Defs.onTc]
  iintro ⟨HΦ, Ho, ⟨%_, H0⟩, ⟨%_, H1⟩, ⟨%_, H2⟩, ⟨%_, H3⟩⟩
  iapply sound_kernel0
  iframe
  iintro H
  iexact H

end Cert.Kernel.Hand

end
-- ==== Proof.Kb.Region1.lean ====
import proofs.«414465_j87909390615182_2_alg».proof.Proof.Gen.Kernel.Launch
import proofs.«414465_j87909390615182_2_alg».proof.Proof.Gen.Kernel.Skeleton
import proofs.«414465_j87909390615182_2_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x1 := Rect.unit (s := S4000x1) ![0, 0] S4000x1.size inb_S4000x1_S4000x1_0_0
abbrev r1_1 : Rect S4000x32 := Rect.unit (s := S4000x32) ![0, 0] S4000x32.size inb_S4000x32_S4000x32_0_0
abbrev r1_2 : Rect S1x32 := Rect.unit (s := S1x32) ![0, 0] S1x32.size inb_S1x32_S1x32_0_0
abbrev r1_3 : Rect S32x16 := Rect.unit (s := S32x16) ![0, 0] S32x16.size inb_S32x16_S32x16_0_0
abbrev r1_4 : Rect S4000x16 := Rect.unit (s := S4000x16) ![0, 0] S4000x16.size inb_S4000x16_S4000x16_0_0

def out1_4 (x0 : Vec F S4000x32 .f32) (x1 : Vec F S4000x1 .f32) (x2 : Vec F S1x32 .f32) (x3 : Vec F S32x16 .f32) : Vec F S4000x16 .bf16 :=
  View.canon [⟨r1_4, k1_pay1 (View.ld x1 r1_0) (View.ld x0 r1_1) (View.ld x2 r1_2) (View.ld x3 r1_3)⟩]

-- The body loads every input whole and stores the payload of what it loaded over the whole output.
theorem sound_kernel1 {E i} (arg1 : Memref sig .tc .vmem S4000x32 .f32) (harg1 : arg1.IsWhole) (arg2 : Memref sig .tc .vmem S4000x1 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S4000x16 .bf16) (harg5 : arg5.IsWhole)
    {x0 x1 x2 x3 d} (K : PUnit → sProp 𝕄) :
    iprop(owns c.tc arg1 fullShare x0 ∗ owns c.tc arg2 fullShare x1 ∗ owns c.tc arg3 fullShare x2 ∗ owns c.tc arg4 fullShare x3 ∗ owns c.tc arg5 fullShare d
        ∗ (iprop(owns c.tc arg1 fullShare x0 ∗ owns c.tc arg2 fullShare x1 ∗ owns c.tc arg3 fullShare x2 ∗ owns c.tc arg4 fullShare x3 ∗ owns c.tc arg5 fullShare (out1_4 x0 x1 x2 x3)) -∗ K ⟨⟩))
      ⊢ wp frame (wpE (defs₀ (F := F)) Variants.none c none) E (cc1__agg_bias_relu_matmul_dis_kernel i arg1 harg1 arg2 harg2 arg3 harg3 arg4 harg4 arg5 harg5) K := by
  simp only [cc1__agg_bias_relu_matmul_dis_kernel_eq_skeleton]; unfold cc1__agg_bias_relu_matmul_dis_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  iexists _; isplitr
  swap; · iexact H4
  ipureintro
  exact View.read_writes_eq_canon _ _ _ (View.cover_of_tiled _ S4000x16.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (w : Fin cfg1.W) : (dat1 V c).A w = V c (Pipeline.arrRef spec1 w) := rfl

theorem after1_4 (t : Fin cfg1.N) : (dat1 V c).after 4 t = out1_4 (iblk1 V c 0 t) (iblk1 V c 1 t) (iblk1 V c 2 t) (iblk1 V c 3 t) := by
  dsimp only [dat1]

theorem Phi1 (t : Fin (cfg1.N + 1)) : (dat1 V c).Φ t = Pipeline.ΦA spec1 c := rfl

-- Holds because the body leaves every input block as it found it.
theorem before1_0 : ∀ t d, (dat1 V c).before 0 t d = iblk1 V c 0 t :=
  (dat1 V c).before_in_eq_fetched 0 rfl (fun _ => rfl) (fun _ _ _ => rfl) fun _ => rfl
theorem before1_1 : ∀ t d, (dat1 V c).before 1 t d = iblk1 V c 1 t :=
  (dat1 V c).before_in_eq_fetched 1 rfl (fun _ => rfl) (fun _ _ _ => rfl) fun _ => rfl
theorem before1_2 : ∀ t d, (dat1 V c).before 2 t d = iblk1 V c 2 t :=
  (dat1 V c).before_in_eq_fetched 2 rfl (fun _ => rfl) (fun _ _ _ => rfl) fun _ => rfl
theorem before1_3 : ∀ t d, (dat1 V c).before 3 t d = iblk1 V c 3 t :=
  (dat1 V c).before_in_eq_fetched 3 rfl (fun _ => rfl) (fun _ _ _ => rfl) fun _ => rfl

-- The body's triple at the input blocks of point `t`; everything else is framed.
theorem body_obligation1 : BodyObligation (dat1 (F := F) V c) (defs₀ (F := F)) Variants.none () Set.univ := fun t => by
  simp only [bigSep_W1, before1_0, before1_1, before1_2, before1_3]
  dsimp only [dat1, Dat.owesAt, Dat.bound]
  sl_whnfR [defs₀, Defs.onTc]
  iintro ⟨HΦ, Ho, ⟨%_, H0⟩, ⟨%_, H1⟩, ⟨%_, H2⟩, ⟨%_, H3⟩, ⟨%_, H4⟩⟩
  iapply sound_kernel1
  iframe
  iintro H
  iexact H

end Cert.Kernel.Hand

end
-- ==== Proof.Kb.Region2.lean ====
import proofs.«414465_j87909390615182_2_alg».proof.Proof.Gen.Kernel.Launch
import proofs.«414465_j87909390615182_2_alg».proof.Proof.Gen.Kernel.Skeleton
import proofs.«414465_j87909390615182_2_alg».proof.Proof.Gen.Kernel.Points
import Idealize.ShloMosaic.Lib.Pipeline.FrameBody
import Idealize.ShloMosaic.Lib.Tactic

noncomputable section

namespace Cert.Kernel.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x16 := Rect.unit (s := S4000x16) ![0, 0] S4000x16.size inb_S4000x16_S4000x16_0_0
abbrev r2_1 : Rect S4000x1 := Rect.unit (s := S4000x1) ![0, 0] S4000x1.size inb_S4000x1_S4000x1_0_0
abbrev r2_2 : Rect S1x16 := Rect.unit (s := S1x16) ![0, 0] S1x16.size inb_S1x16_S1x16_0_0
abbrev r2_3 : Rect S16x8 := Rect.unit (s := S16x8) ![0, 0] S16x8.size inb_S16x8_S16x8_0_0
abbrev r2_4 : Rect S4000x8 := Rect.unit (s := S4000x8) ![0, 0] S4000x8.size inb_S4000x8_S4000x8_0_0

def out2_4 (x0 : Vec F S4000x16 .f32) (x1 : Vec F S4000x1 .f32) (x2 : Vec F S1x16 .f32) (x3 : Vec F S16x8 .f32) : Vec F S4000x8 .bf16 :=
  View.canon [⟨r2_4, k2_pay1 (View.ld x1 r2_1) (View.ld x0 r2_0) (View.ld x2 r2_2) (View.ld x3 r2_3)⟩]

-- The body loads every input whole and stores the payload of what it loaded over the whole output.
theorem sound_kernel2 {E i} (arg1 : Memref sig .tc .vmem S4000x16 .f32) (harg1 : arg1.IsWhole) (arg2 : Memref sig .tc .vmem S4000x1 .f32) (harg2 : arg2.IsWhole) (arg3 : Memref sig .tc .vmem S1x16 .f32) (harg3 : arg3.IsWhole) (arg4 : Memref sig .tc .vmem S16x8 .f32) (harg4 : arg4.IsWhole) (arg5 : Memref sig .tc .vmem S4000x8 .bf16) (harg5 : arg5.IsWhole)
    {x0 x1 x2 x3 d} (K : PUnit → sProp 𝕄) :
    iprop(owns c.tc arg1 fullShare x0 ∗ owns c.tc arg2 fullShare x1 ∗ owns c.tc arg3 fullShare x2 ∗ owns c.tc arg4 fullShare x3 ∗ owns c.tc arg5 fullShare d
        ∗ (iprop(owns c.tc arg1 fullShare x0 ∗ owns c.tc arg2 fullShare x1 ∗ owns c.tc arg3 fullShare x2 ∗ owns c.tc arg4 fullShare x3 ∗ owns c.tc arg5 fullShare (out2_4 x0 x1 x2 x3)) -∗ K ⟨⟩))
      ⊢ wp frame (wpE (defs₀ (F := F)) Variants.none c none) E (cc2__agg_bias_relu_matmul_dis_kernel i arg1 harg1 arg2 harg2 arg3 harg3 arg4 harg4 arg5 harg5) K := by
  simp only [cc2__agg_bias_relu_matmul_dis_kernel_eq_skeleton]; unfold cc2__agg_bias_relu_matmul_dis_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  iexists _; isplitr
  swap; · iexact H4
  ipureintro
  exact View.read_writes_eq_canon _ _ _ (View.cover_of_tiled _ S4000x8.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (w : Fin cfg2.W) : (dat2 V c).A w = V c (Pipeline.arrRef spec2 w) := rfl

theorem after2_4 (t : Fin cfg2.N) : (dat2 V c).after 4 t = out2_4 (iblk2 V c 0 t) (iblk2 V c 1 t) (iblk2 V c 2 t) (iblk2 V c 3 t) := by
  dsimp only [dat2]

theorem Phi2 (t : Fin (cfg2.N + 1)) : (dat2 V c).Φ t = Pipeline.ΦA spec2 c := rfl

-- Holds because the body leaves every input block as it found it.
theorem before2_0 : ∀ t d, (dat2 V c).before 0 t d = iblk2 V c 0 t :=
  (dat2 V c).before_in_eq_fetched 0 rfl (fun _ => rfl) (fun _ _ _ => rfl) fun _ => rfl
theorem before2_1 : ∀ t d, (dat2 V c).before 1 t d = iblk2 V c 1 t :=
  (dat2 V c).before_in_eq_fetched 1 rfl (fun _ => rfl) (fun _ _ _ => rfl) fun _ => rfl
theorem before2_2 : ∀ t d, (dat2 V c).before 2 t d = iblk2 V c 2 t :=
  (dat2 V c).before_in_eq_fetched 2 rfl (fun _ => rfl) (fun _ _ _ => rfl) fun _ => rfl
theorem before2_3 : ∀ t d, (dat2 V c).before 3 t d = iblk2 V c 3 t :=
  (dat2 V c).before_in_eq_fetched 3 rfl (fun _ => rfl) (fun _ _ _ => rfl) fun _ => rfl

-- The body's triple at the input blocks of point `t`; everything else is framed.
theorem body_obligation2 : BodyObligation (dat2 (F := F) V c) (defs₀ (F := F)) Variants.none () Set.univ := fun t => by
  simp only [bigSep_W2, before2_0, before2_1, before2_2, before2_3]
  dsimp only [dat2, Dat.owesAt, Dat.bound]
  sl_whnfR [defs₀, Defs.onTc]
  iintro ⟨HΦ, Ho, ⟨%_, H0⟩, ⟨%_, H1⟩, ⟨%_, H2⟩, ⟨%_, H3⟩, ⟨%_, H4⟩⟩
  iapply sound_kernel2
  iframe
  iintro H
  iexact H

end Cert.Kernel.Hand

end
-- ==== Proof.Kb.Region3.lean ====
import proofs.«414465_j87909390615182_2_alg».proof.Proof.Gen.Kernel.Launch
import proofs.«414465_j87909390615182_2_alg».proof.Proof.Gen.Kernel.Skeleton
import proofs.«414465_j87909390615182_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S128x9 .f32 := Memref.whole cc3_scratch0

def acc3 (c : Dev nD) : (n : ℕ) → n < cfg3.N → Vec F S128x9 .f32
  | 0, h => k3_pay2 (iblk3 V c 1 ⟨0, h⟩) (iblk3 V c 0 ⟨0, h⟩) (iblk3 V c 2 ⟨0, h⟩) (iblk3 V c 3 ⟨0, h⟩) (k3_pay1 (F := F))
  | n + 1, h => k3_pay2 (iblk3 V c 1 ⟨n + 1, h⟩) (iblk3 V c 0 ⟨n + 1, h⟩) (iblk3 V c 2 ⟨n + 1, h⟩) (iblk3 V c 3 ⟨n + 1, h⟩) (acc3 c n (Nat.lt_of_succ_lt h))

/-- The part of the region's resources the body never touches. -/
abbrev rest3 (c : Dev nD) : sProp 𝕄 := Pipeline.scopedRestBut spec3 c [cc3_scratch0]

/-- Before the first point the entry resources; after `n + 1` points the accumulator holds the partial sum `acc3 n`. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ rest3 (F := F) c ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = acc3 V c t.val t.isLt := by dsimp only [dat3]

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel

abbrev cond3_1 (i : grid3.Coords) : Prop := k3_cond2 i = 1#1
theorem hcond3_1 : ∀ t : Fin cfg3.N, cond3_1 (grid3.coords t) ↔ t.val = 19 := by decide +kernel

theorem live3 : ∀ (w : Fin cfg3.W) (t : Fin cfg3.N), w ≠ 4 ∨ cond3_1 (grid3.coords t) → cfg3.idle w (grid3.coords t) = false := by decide +kernel
theorem idle3_4 : ∀ t : Fin cfg3.N, ¬cond3_1 (grid3.coords t) → cfg3.idle 4 (grid3.coords t) = true ∧ (cfg3.win 4).flush t = false := by decide +kernel

/-- The entry resources with the accumulator, at unknown contents, separated out. -/
theorem PhiA3_eq (c : Dev nD) :
    (Pipeline.ΦA spec3 c : sProp 𝕄) = iprop((∃ d, owns (c : Thread nD τ) scM3 fullShare d) ∗ rest3 (F := F) c ∗ ∃ r, prngReg c r) := by
  unfold Pipeline.ΦA
  rw [Pipeline.scopedRest_split_of_list spec3 c [cc3_scratch0] (by decide) (by decide)]
  simp only [scM3, owns_whole, bigSepL_singleton]
  exact BI.equiv_iff.mp ⟨BI.sep_assoc, BI.sep_assoc'⟩

theorem before3 (c : Dev nD) (t : Fin cfg3.N) : ∀ w : Fin cfg3.W, w ≠ 4 → ∀ d, (dat3 V c).before w t d = (dat3 V c).after w t
  | 0, _, d | 1, _, d | 2, _, d | 3, _, d => ((dat3 V c).before_in_eq_fetched _ rfl (fun _ => rfl) (fun _ _ _ => rfl) (fun _ => rfl) t d).trans rfl
  | 4, h, _ => absurd rfl h

theorem cover3 (w) (L) (y : S128x9.Idx) :
    ∃ pc ∈ ((⟨Rect.unit (s := S128x9) ![0, 0] S128x9.size Facts₀.inb_S128x9_S128x9_0_0, w⟩ : View.Piece (Elt F) S128x9 .f32) :: L), y ∈ pc.1.set :=
  ⟨_, List.Mem.head _, View.mem_set_unit_zero (S := S128x9) hz3 Facts₀.inb_S128x9_S128x9_0_0 y⟩

set_option maxHeartbeats 1000000 in
/-- One run of the body: the accumulator restarts from zero when the first condition holds, gains this point's term, and is copied to the output when the second holds. -/
theorem run3 (c : Dev nD) (i : grid3.Coords) (arg1 : Memref sig .tc .vmem S5000x8 .f32) (harg1 : arg1.IsWhole) (arg2 : Memref sig .tc .vmem S5000x1 .f32) (harg2 : arg2.IsWhole) (arg3 : Memref sig .tc .vmem S1x8 .f32) (harg3 : arg3.IsWhole) (arg4 : Memref sig .tc .vmem S5000x1 .i32) (harg4 : arg4.IsWhole) (arg5 : Memref sig .tc .vmem S128x9 .f32) (harg5 : arg5.IsWhole) (arg6 : Memref sig .tc .vmem S128x9 .f32) (harg6 : arg6.IsWhole) (hc : cond3_0 i → ¬cond3_1 i)
    (x0 : Vec F S5000x8 .f32) (x1 : Vec F S5000x1 .f32) (x2 : Vec F S1x8 .f32) (x3 : Vec F S5000x1 .i32) (xs xo r : Vec F S128x9 .f32) (hr : r = k3_pay2 x1 x0 x2 x3 (if cond3_0 i then k3_pay1 else xs)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if cond3_1 i then r else xo) ∗ owns (c : Thread nD τ) arg6 fullShare r) -∗ K ⟨⟩))
      ⊢ wp frame (wpE (defs₀ (F := F)) Variants.none c none) E (cc3__pool_kernel i arg1 harg1 arg2 harg2 arg3 harg3 arg4 harg4 arg5 harg5 arg6 harg6) K := by
  subst hr
  by_cases h0 : cond3_0 i <;> by_cases h1 : cond3_1 i
  · exact absurd h1 (hc h0)
  all_goals
    first | rw [if_pos h0] | rw [if_neg h0]
    first | rw [if_pos h1] | rw [if_neg h1]
    simp only [cc3__pool_kernel_eq_skeleton]; unfold cc3__pool_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact h0 | exact h1)
    sl_step
    iapply Hk
    isplitl [H0]; iexists _; isplitr; swap; iexact H0; swap
    isplitl [H1]; iexists _; isplitr; swap; iexact H1; swap
    isplitl [H2]; iexists _; isplitr; swap; iexact H2; swap
    isplitl [H3]; iexists _; isplitr; swap; iexact H3; swap
    isplitl [H4]; iexists _; isplitr; swap; iexact H4; swap
    iexists _; isplitr; swap; iexact HS
    all_goals ipureintro
    all_goals try assumption
    all_goals
      sl_unfold_words
      rw [View.read_writes_eq_canon _ _ _ (cover3 _ _)]
      simp only [View.canon_cons_unit_zero (S := S128x9) hz3, View.readCov_unit_zero (S := S128x9) _ hz3, View.readAt_eq_ld, hf0, hf1, hf2, hf3, hfs, View.ld_unit_zero (S := S5000x8) hz3, View.ld_unit_zero (S := S5000x1) hz3, View.ld_unit_zero (S := S1x8) hz3, View.ld_unit_zero (S := S128x9) hz3]

/-- Whatever the accumulator holds before point `t`, this point's term turns it into the partial sum `acc3 t`. -/
theorem PhiS3_open (c : Dev nD) (t : Fin cfg3.N) :
    (dat3 V c).Φ t.castSucc ⊢ iprop(∃ xs, ⌜acc3 V c t.val t.isLt = k3_pay2 ((dat3 V c).after 1 t) ((dat3 V c).after 0 t) ((dat3 V c).after 2 t) ((dat3 V c).after 3 t) (if cond3_0 (grid3.coords t) then k3_pay1 else xs)⌝
      ∗ owns (c : Thread nD τ) scM3 fullShare xs ∗ rest3 (F := F) c ∗ ∃ r, prngReg c r) := by
  obtain ⟨n, hn⟩ := t
  cases n with
  | zero =>
    show Pipeline.ΦA spec3 c ⊢ _
    rw [PhiA3_eq]
    iintro ⟨⟨%d, HS⟩, HR⟩
    iexists d; isplitr; · ipureintro; rw [if_pos ((hcond3_0 ⟨0, hn⟩).mpr rfl)]; rfl
    iframe
  | succ n =>
    show iprop(owns (c : Thread nD τ) scM3 fullShare (acc3 V c n _) ∗ _) ⊢ _
    iintro H; iexists _; isplitr; · ipureintro; rw [if_neg fun h => Nat.succ_ne_zero n ((hcond3_0 ⟨n + 1, hn⟩).mp h)]; rfl
    iexact H

/-- The output block is the full sum at the last point and unchanged before it. -/
theorem leaves3_4 (c : Dev nD) (t : Fin cfg3.N) (d) :
    owns (c : Thread nD τ) (st3_4 t) fullShare (if cond3_1 (grid3.coords t) then acc3 V c t.val t.isLt else (dat3 V c).before 4 t d) ⊢ (dat3 V c).leavesExact 4 t := by
  by_cases h : cond3_1 (grid3.coords t)
  · rw [if_pos h]; unfold Dat.leavesExact; rw [live3 4 t (.inr h), after3_4]
  · rw [if_neg h, Dat.leavesExact_idle _ 4 t (idle3_4 t h).1 (idle3_4 t h).2]
    iintro H; iexists d; iexact H

theorem body_obligation3 (c : Dev nD) : BodyObligation (dat3 (F := F) V c) (defs₀ (F := F)) Variants.none () Set.univ := fun t => by
  rw [bigSep_W3, bigSep_W3]
  have b := before3 V c t
  simp only [b 0 (by decide), b 1 (by decide), b 2 (by decide), b 3 (by decide), live3 0 t (.inl (by decide)), live3 1 t (.inl (by decide)), live3 2 t (.inl (by decide)), live3 3 t (.inl (by decide))]
  rw [show (dat3 V c).Φ t.succ = iprop(owns (c : Thread nD τ) scM3 fullShare (acc3 V c t.val t.isLt) ∗ rest3 (F := F) c ∗ ∃ r, prngReg c r) from rfl,
    show (dat3 V c).owesAt () t.succ = (dat3 V c).owesAt () t.castSucc from rfl]
  show _ ⊢ wp frame (wpE (defs₀ (F := F)) Variants.none c none) Set.univ (bodyAt3 t) _
  iintro ⟨HΦ, Ho, ⟨%d0, H0⟩, ⟨%d1, H1⟩, ⟨%d2, H2⟩, ⟨%d3, H3⟩, ⟨%d4, H4⟩⟩
  ihave ⟨%xs, %hr, HS, HR⟩ := (PhiS3_open V c t) $$ HΦ
  iapply (run3 c (grid3.coords t) _ _ _ _ _ _ _ _ _ _ _ _ (fun h0 h1 => absurd (((hcond3_0 t).mp h0).symm.trans ((hcond3_1 t).mp h1)) (by decide)) _ _ _ _ xs ((dat3 V c).before 4 t d4) _ hr Set.univ _)
  iframe H0 H1 H2 H3 H4 HS
  iintro ⟨H0, H1, H2, H3, H4, HS⟩
  iframe HS HR Ho H0 H1 H2 H3
  iapply (leaves3_4 V c t d4)
  iexact H4

theorem hin3 (c : Dev nD) : Pipeline.ΦA spec3 c ⊢ (dat3 V c).Φ 0 := Entails.of_eq rfl

theorem hout3 (c : Dev nD) : (dat3 V c).Φ (Fin.last cfg3.N) ⊢ Pipeline.ΦA spec3 c := by
  rw [PhiA3_eq]
  show iprop(owns (c : Thread nD τ) scM3 fullShare (acc3 V c 19 _) ∗ _) ⊢ _
  iintro ⟨HS, HR⟩
  isplitl [HS]; · iexists _; iexact HS
  iexact HR

end Cert.Kernel.Hand

end
-- ==== Proof.Kb.Run.lean ====
/- The run of the entry function over its twelve items (eight host stretches, four calls), with every unscoped buffer named at the end. -/
import proofs.«414465_j87909390615182_2_alg».proof.Proof.Kb.Region0
import proofs.«414465_j87909390615182_2_alg».proof.Proof.Kb.Region1
import proofs.«414465_j87909390615182_2_alg».proof.Proof.Kb.Region2
import proofs.«414465_j87909390615182_2_alg».proof.Proof.Kb.Region3
import proofs.«414465_j87909390615182_2_alg».proof.Proof.Gen.Kernel.Launch
import proofs.«414465_j87909390615182_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers of a core between the twelve items of the entry function: as launched, after each host stretch, and after
    each call with its windows' arrays at what the call's proof data says they end at. -/

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

theorem W5_in (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hin _).trans (A_eq0 (V4 m ρ) c w))

abbrev W6 : Dev nD → Valuation τ sig (Elt F) := fun c => StableHlo.after hostOps1 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))

abbrev W8 : Dev nD → Valuation τ sig (Elt F) := fun c => StableHlo.after hostOps2 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb

theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))

abbrev W10 : Dev nD → Valuation τ sig (Elt F) := fun c => StableHlo.after hostOps3 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))

abbrev W12 : Dev nD → Valuation τ sig (Elt F) := fun c => StableHlo.after hostOps4 (W11 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W10_of (c : Dev nD) (r : Ref sig .tc) (h : r ∉ hostOps3_W) : W10 m ρ c (Proc.devRef .tc r) = W9 m ρ c (Proc.devRef .tc r) :=
  StableHlo.after_of_writes_sub hostOps3 _ hostOps3_writes h
theorem W12_of (c : Dev nD) (r : Ref sig .tc) (h : r ∉ hostOps4_W) : W12 m ρ c (Proc.devRef .tc r) = W11 m ρ c (Proc.devRef .tc r) :=
  StableHlo.after_of_writes_sub hostOps4 _ hostOps4_writes h

/-- No host stretch writes `b` and no call has it as an output window's array. -/
abbrev Kept (b : Ref sig .tc) : Prop :=
  b ∉ hostOps0_W ∧ b ∉ hostOps0_1_W ∧ b ∉ hostOps0_2_W ∧ b ∉ hostOps0_3_W ∧ b ∉ hostOps1_W ∧ b ∉ hostOps2_W ∧ b ∉ hostOps3_W ∧ b ∉ hostOps4_W
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)

theorem W5_kept (c : Dev nD) (b : Ref sig .tc) (h : ∀ w, Pipeline.arrRef spec0 w = b → (cfg0.win w).isOut = false) :
    W5 m ρ c (Proc.devRef .tc b) = W4 m ρ c (Proc.devRef .tc b) := by
  by_cases hb : ∃ w, Pipeline.arrRef spec0 w = b
  · obtain ⟨w, rfl⟩ := hb; exact W5_in m ρ c w (h w rfl)
  · exact W5_of_ne m ρ c b fun w e => hb ⟨w, e⟩

theorem W7_kept (c : Dev nD) (b : Ref sig .tc) (h : ∀ w, Pipeline.arrRef spec1 w = b → (cfg1.win w).isOut = false) :
    W7 m ρ c (Proc.devRef .tc b) = W6 m ρ c (Proc.devRef .tc b) := by
  by_cases hb : ∃ w, Pipeline.arrRef spec1 w = b
  · obtain ⟨w, rfl⟩ := hb; exact W7_in m ρ c w (h w rfl)
  · exact W7_of_ne m ρ c b fun w e => hb ⟨w, e⟩

theorem W9_kept (c : Dev nD) (b : Ref sig .tc) (h : ∀ w, Pipeline.arrRef spec2 w = b → (cfg2.win w).isOut = false) :
    W9 m ρ c (Proc.devRef .tc b) = W8 m ρ c (Proc.devRef .tc b) := by
  by_cases hb : ∃ w, Pipeline.arrRef spec2 w = b
  · obtain ⟨w, rfl⟩ := hb; exact W9_in m ρ c w (h w rfl)
  · exact W9_of_ne m ρ c b fun w e => hb ⟨w, e⟩

theorem W11_kept (c : Dev nD) (b : Ref sig .tc) (h : ∀ w, Pipeline.arrRef spec3 w = b → (cfg3.win w).isOut = false) :
    W11 m ρ c (Proc.devRef .tc b) = W10 m ρ c (Proc.devRef .tc b) := by
  by_cases hb : ∃ w, Pipeline.arrRef spec3 w = b
  · obtain ⟨w, rfl⟩ := hb; exact W11_in m ρ c w (h w rfl)
  · exact W11_of_ne m ρ c b fun w e => hb ⟨w, e⟩

/-- Such a buffer holds its launch contents wherever a call or the end of the run reads it: induct along the items. -/
theorem kept_all (c : Dev nD) (b : Ref sig .tc) (h : Kept b) :
    let x := m ((c : Thread nD τ).loc b)
    W4 m ρ c (Proc.devRef .tc b) = x ∧ W5 m ρ c (Proc.devRef .tc b) = x ∧ W6 m ρ c (Proc.devRef .tc b) = x
      ∧ W7 m ρ c (Proc.devRef .tc b) = x ∧ W8 m ρ c (Proc.devRef .tc b) = x ∧ W9 m ρ c (Proc.devRef .tc b) = x
      ∧ W11 m ρ c (Proc.devRef .tc b) = x ∧ W12 m ρ c (Proc.devRef .tc b) = x := by
  obtain ⟨a0, a1, a2, a3, a5, a7, a9, a11, r0, r1, r2, r3⟩ := h
  have h4 : W4 m ρ c (Proc.devRef .tc b) = m ((c : Thread nD τ).loc b) :=
    (W4_of m ρ c b a3).trans <| (W3_of m ρ c b a2).trans <| (W2_of m ρ c b a1).trans <| W1_of m ρ c b a0
  have h5 := (W5_kept m ρ c b r0).trans h4
  have h6 := (W6_of m ρ c b a5).trans h5
  have h7 := (W7_kept m ρ c b r1).trans h6
  have h8 := (W8_of m ρ c b a7).trans h7
  have h9 := (W9_kept m ρ c b r2).trans h8
  have h11 := (W11_kept m ρ c b r3).trans <| (W10_of m ρ c b a9).trans h9
  exact ⟨h4, h5, h6, h7, h8, h9, h11, (W12_of m ρ c b a11).trans h11⟩

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

theorem ΦA_of {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp

theorem of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-- Entering a call: the buffers split into the windows' arrays and the rest; the dues carry over. -/
theorem entry_of {B A Zr Pp O O' Pf S Lv : sProp 𝕄} (hsplit : B ⊢ iprop(A ∗ Zr)) (hpf : (BI.emp : sProp 𝕄) ⊢ Pf) (hO : O ⊢ O') :
    iprop((B ∗ Pp ∗ O) ∗ S ∗ Lv) ⊢ |={Set.univ}=> iprop(A ∗ Pf ∗ O' ∗ Pp ∗ Zr) := by
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply hO; iexact HO
  isplitl [Hp]; · iexact Hp
  iexact Hrest

/-- Leaving a call: the arrays and the rest join into the buffers again. -/
theorem exit_of {A Zr B O O' Y : sProp 𝕄} (hjoin : iprop(A ∗ Zr) ⊢ B) (hO : O ⊢ O') :
    iprop(A ∗ O ∗ Y ∗ Zr) ⊢ |={Set.univ}=> iprop(B ∗ Y ∗ O') := by
  iintro ⟨Ha, HO, HY, Hrest⟩
  imodintro
  isplitl [Ha Hrest]
  · iapply hjoin; isplitl [Ha] <;> iassumption
  isplitl [HY]; · iexact HY
  iapply hO; iexact HO

/-- A call whose body owes nothing at its cells enters and leaves with the core's dues as they were. -/
theorem owes_in {cfg : Pipeline.Cfg sig Λ₀} {c : Dev nD} (dat : Dat τ (Elt F) Unit ℕ (UR sig nD τ) ℕ cfg c)
    (ho : ∀ t, dat.owed t = 0) (hr : ∀ t, dat.recorded t = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr; · ipureintro; exact fun _ _ => Or.inl (by rw [hr]; trivial)
  iexact HO

theorem owes_out {cfg : Pipeline.Cfg sig Λ₀} {c : Dev nD} (dat : Dat τ (Elt F) Unit ℕ (UR sig nD τ) ℕ cfg c) (t)
    (ho : ∀ t, dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 (V4 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 0 c).Φ 0 = Pipeline.ΦA spec0 c from Phi0 (V4 m ρ) c 0]
    exact ΦA_of _ c _
  hout c := by
    rw [Pipeline.ownSems0_none, show (pdats m ρ 0 c).Φ (Fin.last _) = Pipeline.ΦA spec0 c from Phi0 (V4 m ρ) c _]
    exact of_ΦA _ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (W5 m ρ c ·) ((pdats m ρ 0 c).arrAt · cfg0.N) (fun w => (W5_arr m ρ c w).symm)
      (fun b hb => W5_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun w => A_eq1 (V6 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 1 c).Φ 0 = Pipeline.ΦA spec1 c from Phi1 (V6 m ρ) c 0]
    exact ΦA_of _ c _
  hout c := by
    rw [Pipeline.ownSems0_none, show (pdats m ρ 1 c).Φ (Fin.last _) = Pipeline.ΦA spec1 c from Phi1 (V6 m ρ) c _]
    exact of_ΦA _ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (W7 m ρ c ·) ((pdats m ρ 1 c).arrAt · cfg1.N) (fun w => (W7_arr m ρ c w).symm)
      (fun b hb => W7_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun w => A_eq2 (V8 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 2 c).Φ 0 = Pipeline.ΦA spec2 c from Phi2 (V8 m ρ) c 0]
    exact ΦA_of _ c _
  hout c := by
    rw [Pipeline.ownSems0_none, show (pdats m ρ 2 c).Φ (Fin.last _) = Pipeline.ΦA spec2 c from Phi2 (V8 m ρ) c _]
    exact of_ΦA _ c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (W9 m ρ c ·) ((pdats m ρ 2 c).arrAt · cfg2.N) (fun w => (W9_arr m ρ c w).symm)
      (fun b hb => W9_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun w => A_eq3 (V10 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := (ΦA_of spec3 c _).trans (hin3 (V10 m ρ) c)
  hout c := by
    rw [Pipeline.ownSems0_none]
    exact (hout3 (V10 m ρ) c).trans (of_ΦA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (W11 m ρ c ·) ((pdats m ρ 3 c).arrAt · cfg3.N) (fun w => (W11_arr m ρ c w).symm)
      (fun b hb => W11_of_ne m ρ c b fun w e => hb (Finset.mem_image.mpr ⟨w, Finset.mem_univ _, e⟩))
    rw [Pipeline.unscopedBufs_held] at hjoin
    exact exit_of hjoin (owes_out _ _ fun _ => rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)) ]

/-- The entry function is the run of its twelve items. -/
theorem main_run (c : Dev nD) : main (F := F) c = Pipeline.Seg.run (segs m ρ) := (main_chain c).trans (by chain_rfl)

set_option backward.isDefEq.respectTransparency.types false in
/-- Every weakly fair execution terminates, faulting nowhere, with each unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- So every argument array ends as launched. -/
theorem arg_kept {mem : (ℓ : Loc nD τ sig) → Buf (Elt F) ℓ}
    (h : ∀ c : Dev nD, ∀ b ∈ Pipeline.ucRefs τ sig, mem (((c : Thread nD τ)).1, b) = W12 m ρ c b) (c : Dev nD) (b : Ref sig .tc)
    (hu : ¬ (Proc.devRef .tc b : DevRef τ sig).isScoped) (hb : Kept b) :
    mem ((c.tc : Thread nD τ).loc b) = m ((c.tc : Thread nD τ).loc b) :=
  (h c _ (mem_uc b hu)).trans (kept_all m ρ c b hb).2.2.2.2.2.2.2

end Cert.Kernel.Hand

end
-- ==== Proof.K.Region0.lean ====
import proofs.«414465_j87909390615182_2_alg».proof.Proof.Gen.KernelIdeal.Launch
import proofs.«414465_j87909390615182_2_alg».proof.Proof.Gen.KernelIdeal.Skeleton
import proofs.«414465_j87909390615182_2_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S4000x3 := Rect.unit (s := S4000x3) ![0, 0] S4000x3.size inb_S4000x3_S4000x3_0_0
abbrev r0_1 : Rect S3x32 := Rect.unit (s := S3x32) ![0, 0] S3x32.size inb_S3x32_S3x32_0_0
abbrev r0_2 : Rect S4000x1 := Rect.unit (s := S4000x1) ![0, 0] S4000x1.size inb_S4000x1_S4000x1_0_0
abbrev r0_3 : Rect S4000x32 := Rect.unit (s := S4000x32) ![0, 0] S4000x32.size inb_S4000x32_S4000x32_0_0

def out0_3 (x0 : Vec F S4000x3 .f32) (x1 : Vec F S4000x1 .f32) (x2 : Vec F S3x32 .f32) : Vec F S4000x32 .bf16 :=
  View.canon [⟨r0_3, k0_pay1 (View.ld x0 r0_0) (View.ld x2 r0_1) (View.ld x1 r0_2)⟩]

-- The body loads every input whole and stores the payload of what it loaded over the whole output.
theorem sound_kernel0 {E i} (arg1 : Memref sig .tc .vmem S4000x3 .f32) (harg1 : arg1.IsWhole) (arg2 : Memref sig .tc .vmem S4000x1 .f32) (harg2 : arg2.IsWhole) (arg3 : Memref sig .tc .vmem S3x32 .f32) (harg3 : arg3.IsWhole) (arg4 : Memref sig .tc .vmem S4000x32 .bf16) (harg4 : arg4.IsWhole)
    {x0 x1 x2 d} (K : PUnit → sProp 𝕄) :
    iprop(owns c.tc arg1 fullShare x0 ∗ owns c.tc arg2 fullShare x1 ∗ owns c.tc arg3 fullShare x2 ∗ owns c.tc arg4 fullShare d
        ∗ (iprop(owns c.tc arg1 fullShare x0 ∗ owns c.tc arg2 fullShare x1 ∗ owns c.tc arg3 fullShare x2 ∗ owns c.tc arg4 fullShare (out0_3 x0 x1 x2)) -∗ K ⟨⟩))
      ⊢ wp frame (wpE (defs₀ (F := F)) Variants.none c none) E (cc0__matmul_dis_kernel i arg1 harg1 arg2 harg2 arg3 harg3 arg4 harg4) K := by
  simp only [cc0__matmul_dis_kernel_eq_skeleton]; unfold cc0__matmul_dis_kernel_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · istop; exact owns_intro _ _ _ _
  isplitl [H1]; · istop; exact owns_intro _ _ _ _
  isplitl [H2]; · istop; exact owns_intro _ _ _ _
  iexists _; isplitr
  swap; · iexact H3
  ipureintro
  exact View.read_writes_eq_canon _ _ _ (View.cover_of_tiled _ S4000x32.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) : (dat0 V c).after 3 t = out0_3 (iblk0 V c 0 t) (iblk0 V c 1 t) (iblk0 V c 2 t) := by
  dsimp only [dat0]

theorem Phi0 (t : Fin (cfg0.N + 1)) : (dat0 V c).Φ t = Pipeline.ΦA spec0 c := rfl

-- Holds because the body leaves every input block as it found it.
theorem before0_0 : ∀ t d, (dat0 V c).before 0 t d = iblk0 V c 0 t :=
  (dat0 V c).before_in_eq_fetched 0 rfl (fun _ => rfl) (fun _ _ _ => rfl) fun _ => rfl
theorem before0_1 : ∀ t d, (dat0 V c).before 1 t d = iblk0 V c 1 t :=
  (dat0 V c).before_in_eq_fetched 1 rfl (fun _ => rfl) (fun _ _ _ => rfl) fun _ => rfl
theorem before0_2 : ∀ t d, (dat0 V c).before 2 t d = iblk0 V c 2 t :=
  (dat0 V c).before_in_eq_fetched 2 rfl (fun _ => rfl) (fun _ _ _ => rfl) fun _ => rfl

-- The body's triple at the input blocks of point `t`; everything else is framed.
theorem body_obligation0 : BodyObligation (dat0 (F := F) V c) (defs₀ (F := F)) Variants.none () Set.univ := fun t => by
  simp only [bigSep_W0, before0_0, before0_1, before0_2]
  dsimp only [dat0, Dat.owesAt, Dat.bound]
  sl_whnfR [defs₀, Defs.onTc]
  iintro ⟨HΦ, Ho, ⟨%_, H0⟩, ⟨%_, H1⟩, ⟨%_, H2⟩, ⟨%_, H3⟩⟩
  iapply sound_kernel0
  iframe
  iintro H
  iexact H

end Cert.KernelIdeal.Hand

end
-- ==== Proof.K.Region1.lean ====
import proofs.«414465_j87909390615182_2_alg».proof.Proof.Gen.KernelIdeal.Launch
import proofs.«414465_j87909390615182_2_alg».proof.Proof.Gen.KernelIdeal.Skeleton
import proofs.«414465_j87909390615182_2_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S4000x1 := Rect.unit (s := S4000x1) ![0, 0] S4000x1.size inb_S4000x1_S4000x1_0_0
abbrev r1_1 : Rect S4000x32 := Rect.unit (s := S4000x32) ![0, 0] S4000x32.size inb_S4000x32_S4000x32_0_0
abbrev r1_2 : Rect S1x32 := Rect.unit (s := S1x32) ![0, 0] S1x32.size inb_S1x32_S1x32_0_0
abbrev r1_3 : Rect S32x16 := Rect.unit (s := S32x16) ![0, 0] S32x16.size inb_S32x16_S32x16_0_0
abbrev r1_4 : Rect S4000x16 := Rect.unit (s := S4000x16) ![0, 0] S4000x16.size inb_S4000x16_S4000x16_0_0

def out1_4 (x0 : Vec F S4000x32 .f32) (x1 : Vec F S4000x1 .f32) (x2 : Vec F S1x32 .f32) (x3 : Vec F S32x16 .f32) : Vec F S4000x16 .bf16 :=
  View.canon [⟨r1_4, k1_pay1 (View.ld x1 r1_0) (View.ld x0 r1_1) (View.ld x2 r1_2) (View.ld x3 r1_3)⟩]

-- The body loads every input whole and stores the payload of what it loaded over the whole output.
theorem sound_kernel1 {E i} (arg1 : Memref sig .tc .vmem S4000x32 .f32) (harg1 : arg1.IsWhole) (arg2 : Memref sig .tc .vmem S4000x1 .f32) (harg2 : arg2.IsWhole) (arg3 : Memref sig .tc .vmem S1x32 .f32) (harg3 : arg3.IsWhole) (arg4 : Memref sig .tc .vmem S32x16 .f32) (harg4 : arg4.IsWhole) (arg5 : Memref sig .tc .vmem S4000x16 .bf16) (harg5 : arg5.IsWhole)
    {x0 x1 x2 x3 d} (K : PUnit → sProp 𝕄) :
    iprop(owns c.tc arg1 fullShare x0 ∗ owns c.tc arg2 fullShare x1 ∗ owns c.tc arg3 fullShare x2 ∗ owns c.tc arg4 fullShare x3 ∗ owns c.tc arg5 fullShare d
        ∗ (iprop(owns c.tc arg1 fullShare x0 ∗ owns c.tc arg2 fullShare x1 ∗ owns c.tc arg3 fullShare x2 ∗ owns c.tc arg4 fullShare x3 ∗ owns c.tc arg5 fullShare (out1_4 x0 x1 x2 x3)) -∗ K ⟨⟩))
      ⊢ wp frame (wpE (defs₀ (F := F)) Variants.none c none) E (cc1__agg_bias_relu_matmul_dis_kernel i arg1 harg1 arg2 harg2 arg3 harg3 arg4 harg4 arg5 harg5) K := by
  simp only [cc1__agg_bias_relu_matmul_dis_kernel_eq_skeleton]; unfold cc1__agg_bias_relu_matmul_dis_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  iexists _; isplitr
  swap; · iexact H4
  ipureintro
  exact View.read_writes_eq_canon _ _ _ (View.cover_of_tiled _ S4000x16.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (w : Fin cfg1.W) : (dat1 V c).A w = V c (Pipeline.arrRef spec1 w) := rfl

theorem after1_4 (t : Fin cfg1.N) : (dat1 V c).after 4 t = out1_4 (iblk1 V c 0 t) (iblk1 V c 1 t) (iblk1 V c 2 t) (iblk1 V c 3 t) := by
  dsimp only [dat1]

theorem Phi1 (t : Fin (cfg1.N + 1)) : (dat1 V c).Φ t = Pipeline.ΦA spec1 c := rfl

-- Holds because the body leaves every input block as it found it.
theorem before1_0 : ∀ t d, (dat1 V c).before 0 t d = iblk1 V c 0 t :=
  (dat1 V c).before_in_eq_fetched 0 rfl (fun _ => rfl) (fun _ _ _ => rfl) fun _ => rfl
theorem before1_1 : ∀ t d, (dat1 V c).before 1 t d = iblk1 V c 1 t :=
  (dat1 V c).before_in_eq_fetched 1 rfl (fun _ => rfl) (fun _ _ _ => rfl) fun _ => rfl
theorem before1_2 : ∀ t d, (dat1 V c).before 2 t d = iblk1 V c 2 t :=
  (dat1 V c).before_in_eq_fetched 2 rfl (fun _ => rfl) (fun _ _ _ => rfl) fun _ => rfl
theorem before1_3 : ∀ t d, (dat1 V c).before 3 t d = iblk1 V c 3 t :=
  (dat1 V c).before_in_eq_fetched 3 rfl (fun _ => rfl) (fun _ _ _ => rfl) fun _ => rfl

-- The body's triple at the input blocks of point `t`; everything else is framed.
theorem body_obligation1 : BodyObligation (dat1 (F := F) V c) (defs₀ (F := F)) Variants.none () Set.univ := fun t => by
  simp only [bigSep_W1, before1_0, before1_1, before1_2, before1_3]
  dsimp only [dat1, Dat.owesAt, Dat.bound]
  sl_whnfR [defs₀, Defs.onTc]
  iintro ⟨HΦ, Ho, ⟨%_, H0⟩, ⟨%_, H1⟩, ⟨%_, H2⟩, ⟨%_, H3⟩, ⟨%_, H4⟩⟩
  iapply sound_kernel1
  iframe
  iintro H
  iexact H

end Cert.KernelIdeal.Hand

end
-- ==== Proof.K.Region2.lean ====
import proofs.«414465_j87909390615182_2_alg».proof.Proof.Gen.KernelIdeal.Launch
import proofs.«414465_j87909390615182_2_alg».proof.Proof.Gen.KernelIdeal.Skeleton
import proofs.«414465_j87909390615182_2_alg».proof.Proof.Gen.KernelIdeal.Points
import Idealize.ShloMosaic.Lib.Pipeline.FrameBody
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI Idealize.SL.BI.BIBase Idealize.SL.ProofMode Idealize.SL.Sem
open scoped Idealize.SL.BI
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S4000x16 := Rect.unit (s := S4000x16) ![0, 0] S4000x16.size inb_S4000x16_S4000x16_0_0
abbrev r2_1 : Rect S4000x1 := Rect.unit (s := S4000x1) ![0, 0] S4000x1.size inb_S4000x1_S4000x1_0_0
abbrev r2_2 : Rect S1x16 := Rect.unit (s := S1x16) ![0, 0] S1x16.size inb_S1x16_S1x16_0_0
abbrev r2_3 : Rect S16x8 := Rect.unit (s := S16x8) ![0, 0] S16x8.size inb_S16x8_S16x8_0_0
abbrev r2_4 : Rect S4000x8 := Rect.unit (s := S4000x8) ![0, 0] S4000x8.size inb_S4000x8_S4000x8_0_0

def out2_4 (x0 : Vec F S4000x16 .f32) (x1 : Vec F S4000x1 .f32) (x2 : Vec F S1x16 .f32) (x3 : Vec F S16x8 .f32) : Vec F S4000x8 .bf16 :=
  View.canon [⟨r2_4, k2_pay1 (View.ld x1 r2_1) (View.ld x0 r2_0) (View.ld x2 r2_2) (View.ld x3 r2_3)⟩]

-- The body loads every input whole and stores the payload of what it loaded over the whole output.
theorem sound_kernel2 {E i} (arg1 : Memref sig .tc .vmem S4000x16 .f32) (harg1 : arg1.IsWhole) (arg2 : Memref sig .tc .vmem S4000x1 .f32) (harg2 : arg2.IsWhole) (arg3 : Memref sig .tc .vmem S1x16 .f32) (harg3 : arg3.IsWhole) (arg4 : Memref sig .tc .vmem S16x8 .f32) (harg4 : arg4.IsWhole) (arg5 : Memref sig .tc .vmem S4000x8 .bf16) (harg5 : arg5.IsWhole)
    {x0 x1 x2 x3 d} (K : PUnit → sProp 𝕄) :
    iprop(owns c.tc arg1 fullShare x0 ∗ owns c.tc arg2 fullShare x1 ∗ owns c.tc arg3 fullShare x2 ∗ owns c.tc arg4 fullShare x3 ∗ owns c.tc arg5 fullShare d
        ∗ (iprop(owns c.tc arg1 fullShare x0 ∗ owns c.tc arg2 fullShare x1 ∗ owns c.tc arg3 fullShare x2 ∗ owns c.tc arg4 fullShare x3 ∗ owns c.tc arg5 fullShare (out2_4 x0 x1 x2 x3)) -∗ K ⟨⟩))
      ⊢ wp frame (wpE (defs₀ (F := F)) Variants.none c none) E (cc2__agg_bias_relu_matmul_dis_kernel i arg1 harg1 arg2 harg2 arg3 harg3 arg4 harg4 arg5 harg5) K := by
  simp only [cc2__agg_bias_relu_matmul_dis_kernel_eq_skeleton]; unfold cc2__agg_bias_relu_matmul_dis_kernel_skel
  unfold owns
  iintro ⟨⟨%f0, %hf0, H0⟩, ⟨%f1, %hf1, H1⟩, ⟨%f2, %hf2, H2⟩, ⟨%f3, %hf3, H3⟩, ⟨%f4, -, H4⟩, Hk⟩
  subst hf0 hf1 hf2 hf3
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  iexists _; isplitr
  swap; · iexact H4
  ipureintro
  exact View.read_writes_eq_canon _ _ _ (View.cover_of_tiled _ S4000x8.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (w : Fin cfg2.W) : (dat2 V c).A w = V c (Pipeline.arrRef spec2 w) := rfl

theorem after2_4 (t : Fin cfg2.N) : (dat2 V c).after 4 t = out2_4 (iblk2 V c 0 t) (iblk2 V c 1 t) (iblk2 V c 2 t) (iblk2 V c 3 t) := by
  dsimp only [dat2]

theorem Phi2 (t : Fin (cfg2.N + 1)) : (dat2 V c).Φ t = Pipeline.ΦA spec2 c := rfl

-- Holds because the body leaves every input block as it found it.
theorem before2_0 : ∀ t d, (dat2 V c).before 0 t d = iblk2 V c 0 t :=
  (dat2 V c).before_in_eq_fetched 0 rfl (fun _ => rfl) (fun _ _ _ => rfl) fun _ => rfl
theorem before2_1 : ∀ t d, (dat2 V c).before 1 t d = iblk2 V c 1 t :=
  (dat2 V c).before_in_eq_fetched 1 rfl (fun _ => rfl) (fun _ _ _ => rfl) fun _ => rfl
theorem before2_2 : ∀ t d, (dat2 V c).before 2 t d = iblk2 V c 2 t :=
  (dat2 V c).before_in_eq_fetched 2 rfl (fun _ => rfl) (fun _ _ _ => rfl) fun _ => rfl
theorem before2_3 : ∀ t d, (dat2 V c).before 3 t d = iblk2 V c 3 t :=
  (dat2 V c).before_in_eq_fetched 3 rfl (fun _ => rfl) (fun _ _ _ => rfl) fun _ => rfl

-- The body's triple at the input blocks of point `t`; everything else is framed.
theorem body_obligation2 : BodyObligation (dat2 (F := F) V c) (defs₀ (F := F)) Variants.none () Set.univ := fun t => by
  simp only [bigSep_W2, before2_0, before2_1, before2_2, before2_3]
  dsimp only [dat2, Dat.owesAt, Dat.bound]
  sl_whnfR [defs₀, Defs.onTc]
  iintro ⟨HΦ, Ho, ⟨%_, H0⟩, ⟨%_, H1⟩, ⟨%_, H2⟩, ⟨%_, H3⟩, ⟨%_, H4⟩⟩
  iapply sound_kernel2
  iframe
  iintro H
  iexact H

end Cert.KernelIdeal.Hand

end
-- ==== Proof.K.Region3.lean ====
import proofs.«414465_j87909390615182_2_alg».proof.Proof.Gen.KernelIdeal.Launch
import proofs.«414465_j87909390615182_2_alg».proof.Proof.Gen.KernelIdeal.Skeleton
import proofs.«414465_j87909390615182_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S128x9 .f32 := Memref.whole cc3_scratch0

def acc3 (c : Dev nD) : (n : ℕ) → n < cfg3.N → Vec F S128x9 .f32
  | 0, h => k3_pay2 (iblk3 V c 1 ⟨0, h⟩) (iblk3 V c 0 ⟨0, h⟩) (iblk3 V c 2 ⟨0, h⟩) (iblk3 V c 3 ⟨0, h⟩) (k3_pay1 (F := F))
  | n + 1, h => k3_pay2 (iblk3 V c 1 ⟨n + 1, h⟩) (iblk3 V c 0 ⟨n + 1, h⟩) (iblk3 V c 2 ⟨n + 1, h⟩) (iblk3 V c 3 ⟨n + 1, h⟩) (acc3 c n (Nat.lt_of_succ_lt h))

/-- The part of the region's resources the body never touches. -/
abbrev rest3 (c : Dev nD) : sProp 𝕄 := Pipeline.scopedRestBut spec3 c [cc3_scratch0]

/-- Before the first point the entry resources; after `n + 1` points the accumulator holds the partial sum `acc3 n`. -/
def PhiS3 (c : Dev nD) : (n : ℕ) → n ≤ cfg3.N → sProp 𝕄
  | 0, _ => Pipeline.ΦA spec3 c
  | n + 1, hn => iprop(owns (c : Thread nD τ) scM3 fullShare (acc3 V c n hn) ∗ rest3 (F := F) c ∗ ∃ r, prngReg c r)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_4 (c : Dev nD) (t : Fin cfg3.N) : (dat3 V c).after 4 t = acc3 V c t.val t.isLt := by dsimp only [dat3]

theorem hz3 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel

abbrev cond3_1 (i : grid3.Coords) : Prop := k3_cond2 i = 1#1
theorem hcond3_1 : ∀ t : Fin cfg3.N, cond3_1 (grid3.coords t) ↔ t.val = 19 := by decide +kernel

theorem live3 : ∀ (w : Fin cfg3.W) (t : Fin cfg3.N), w ≠ 4 ∨ cond3_1 (grid3.coords t) → cfg3.idle w (grid3.coords t) = false := by decide +kernel
theorem idle3_4 : ∀ t : Fin cfg3.N, ¬cond3_1 (grid3.coords t) → cfg3.idle 4 (grid3.coords t) = true ∧ (cfg3.win 4).flush t = false := by decide +kernel

/-- The entry resources with the accumulator, at unknown contents, separated out. -/
theorem PhiA3_eq (c : Dev nD) :
    (Pipeline.ΦA spec3 c : sProp 𝕄) = iprop((∃ d, owns (c : Thread nD τ) scM3 fullShare d) ∗ rest3 (F := F) c ∗ ∃ r, prngReg c r) := by
  unfold Pipeline.ΦA
  rw [Pipeline.scopedRest_split_of_list spec3 c [cc3_scratch0] (by decide) (by decide)]
  simp only [scM3, owns_whole, bigSepL_singleton]
  exact BI.equiv_iff.mp ⟨BI.sep_assoc, BI.sep_assoc'⟩

theorem before3 (c : Dev nD) (t : Fin cfg3.N) : ∀ w : Fin cfg3.W, w ≠ 4 → ∀ d, (dat3 V c).before w t d = (dat3 V c).after w t
  | 0, _, d | 1, _, d | 2, _, d | 3, _, d => ((dat3 V c).before_in_eq_fetched _ rfl (fun _ => rfl) (fun _ _ _ => rfl) (fun _ => rfl) t d).trans rfl
  | 4, h, _ => absurd rfl h

theorem cover3 (w) (L) (y : S128x9.Idx) :
    ∃ pc ∈ ((⟨Rect.unit (s := S128x9) ![0, 0] S128x9.size Facts₀.inb_S128x9_S128x9_0_0, w⟩ : View.Piece (Elt F) S128x9 .f32) :: L), y ∈ pc.1.set :=
  ⟨_, List.Mem.head _, View.mem_set_unit_zero (S := S128x9) hz3 Facts₀.inb_S128x9_S128x9_0_0 y⟩

set_option maxHeartbeats 1000000 in
/-- One run of the body: the accumulator restarts from zero when the first condition holds, gains this point's term, and is copied to the output when the second holds. -/
theorem run3 (c : Dev nD) (i : grid3.Coords) (arg1 : Memref sig .tc .vmem S5000x8 .f32) (harg1 : arg1.IsWhole) (arg2 : Memref sig .tc .vmem S5000x1 .f32) (harg2 : arg2.IsWhole) (arg3 : Memref sig .tc .vmem S1x8 .f32) (harg3 : arg3.IsWhole) (arg4 : Memref sig .tc .vmem S5000x1 .i32) (harg4 : arg4.IsWhole) (arg5 : Memref sig .tc .vmem S128x9 .f32) (harg5 : arg5.IsWhole) (arg6 : Memref sig .tc .vmem S128x9 .f32) (harg6 : arg6.IsWhole) (hc : cond3_0 i → ¬cond3_1 i)
    (x0 : Vec F S5000x8 .f32) (x1 : Vec F S5000x1 .f32) (x2 : Vec F S1x8 .f32) (x3 : Vec F S5000x1 .i32) (xs xo r : Vec F S128x9 .f32) (hr : r = k3_pay2 x1 x0 x2 x3 (if cond3_0 i then k3_pay1 else xs)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if cond3_1 i then r else xo) ∗ owns (c : Thread nD τ) arg6 fullShare r) -∗ K ⟨⟩))
      ⊢ wp frame (wpE (defs₀ (F := F)) Variants.none c none) E (cc3__pool_kernel i arg1 harg1 arg2 harg2 arg3 harg3 arg4 harg4 arg5 harg5 arg6 harg6) K := by
  subst hr
  by_cases h0 : cond3_0 i <;> by_cases h1 : cond3_1 i
  · exact absurd h1 (hc h0)
  all_goals
    first | rw [if_pos h0] | rw [if_neg h0]
    first | rw [if_pos h1] | rw [if_neg h1]
    simp only [cc3__pool_kernel_eq_skeleton]; unfold cc3__pool_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact h0 | exact h1)
    sl_step
    iapply Hk
    isplitl [H0]; iexists _; isplitr; swap; iexact H0; swap
    isplitl [H1]; iexists _; isplitr; swap; iexact H1; swap
    isplitl [H2]; iexists _; isplitr; swap; iexact H2; swap
    isplitl [H3]; iexists _; isplitr; swap; iexact H3; swap
    isplitl [H4]; iexists _; isplitr; swap; iexact H4; swap
    iexists _; isplitr; swap; iexact HS
    all_goals ipureintro
    all_goals try assumption
    all_goals
      sl_unfold_words
      rw [View.read_writes_eq_canon _ _ _ (cover3 _ _)]
      simp only [View.canon_cons_unit_zero (S := S128x9) hz3, View.readCov_unit_zero (S := S128x9) _ hz3, View.readAt_eq_ld, hf0, hf1, hf2, hf3, hfs, View.ld_unit_zero (S := S5000x8) hz3, View.ld_unit_zero (S := S5000x1) hz3, View.ld_unit_zero (S := S1x8) hz3, View.ld_unit_zero (S := S128x9) hz3]

/-- Whatever the accumulator holds before point `t`, this point's term turns it into the partial sum `acc3 t`. -/
theorem PhiS3_open (c : Dev nD) (t : Fin cfg3.N) :
    (dat3 V c).Φ t.castSucc ⊢ iprop(∃ xs, ⌜acc3 V c t.val t.isLt = k3_pay2 ((dat3 V c).after 1 t) ((dat3 V c).after 0 t) ((dat3 V c).after 2 t) ((dat3 V c).after 3 t) (if cond3_0 (grid3.coords t) then k3_pay1 else xs)⌝
      ∗ owns (c : Thread nD τ) scM3 fullShare xs ∗ rest3 (F := F) c ∗ ∃ r, prngReg c r) := by
  obtain ⟨n, hn⟩ := t
  cases n with
  | zero =>
    show Pipeline.ΦA spec3 c ⊢ _
    rw [PhiA3_eq]
    iintro ⟨⟨%d, HS⟩, HR⟩
    iexists d; isplitr; · ipureintro; rw [if_pos ((hcond3_0 ⟨0, hn⟩).mpr rfl)]; rfl
    iframe
  | succ n =>
    show iprop(owns (c : Thread nD τ) scM3 fullShare (acc3 V c n _) ∗ _) ⊢ _
    iintro H; iexists _; isplitr; · ipureintro; rw [if_neg fun h => Nat.succ_ne_zero n ((hcond3_0 ⟨n + 1, hn⟩).mp h)]; rfl
    iexact H

/-- The output block is the full sum at the last point and unchanged before it. -/
theorem leaves3_4 (c : Dev nD) (t : Fin cfg3.N) (d) :
    owns (c : Thread nD τ) (st3_4 t) fullShare (if cond3_1 (grid3.coords t) then acc3 V c t.val t.isLt else (dat3 V c).before 4 t d) ⊢ (dat3 V c).leavesExact 4 t := by
  by_cases h : cond3_1 (grid3.coords t)
  · rw [if_pos h]; unfold Dat.leavesExact; rw [live3 4 t (.inr h), after3_4]
  · rw [if_neg h, Dat.leavesExact_idle _ 4 t (idle3_4 t h).1 (idle3_4 t h).2]
    iintro H; iexists d; iexact H

theorem body_obligation3 (c : Dev nD) : BodyObligation (dat3 (F := F) V c) (defs₀ (F := F)) Variants.none () Set.univ := fun t => by
  rw [bigSep_W3, bigSep_W3]
  have b := before3 V c t
  simp only [b 0 (by decide), b 1 (by decide), b 2 (by decide), b 3 (by decide), live3 0 t (.inl (by decide)), live3 1 t (.inl (by decide)), live3 2 t (.inl (by decide)), live3 3 t (.inl (by decide))]
  rw [show (dat3 V c).Φ t.succ = iprop(owns (c : Thread nD τ) scM3 fullShare (acc3 V c t.val t.isLt) ∗ rest3 (F := F) c ∗ ∃ r, prngReg c r) from rfl,
    show (dat3 V c).owesAt () t.succ = (dat3 V c).owesAt () t.castSucc from rfl]
  show _ ⊢ wp frame (wpE (defs₀ (F := F)) Variants.none c none) Set.univ (bodyAt3 t) _
  iintro ⟨HΦ, Ho, ⟨%d0, H0⟩, ⟨%d1, H1⟩, ⟨%d2, H2⟩, ⟨%d3, H3⟩, ⟨%d4, H4⟩⟩
  ihave ⟨%xs, %hr, HS, HR⟩ := (PhiS3_open V c t) $$ HΦ
  iapply (run3 c (grid3.coords t) _ _ _ _ _ _ _ _ _ _ _ _ (fun h0 h1 => absurd (((hcond3_0 t).mp h0).symm.trans ((hcond3_1 t).mp h1)) (by decide)) _ _ _ _ xs ((dat3 V c).before 4 t d4) _ hr Set.univ _)
  iframe H0 H1 H2 H3 H4 HS
  iintro ⟨H0, H1, H2, H3, H4, HS⟩
  iframe HS HR Ho H0 H1 H2 H3
  iapply (leaves3_4 V c t d4)
  iexact H4

theorem hin3 (c : Dev nD) : Pipeline.ΦA spec3 c ⊢ (dat3 V c).Φ 0 := Entails.of_eq rfl

theorem hout3 (c : Dev nD) : (dat3 V c).Φ (Fin.last cfg3.N) ⊢ Pipeline.ΦA spec3 c := by
  rw [PhiA3_eq]
  show iprop(owns (c : Thread nD τ) scM3 fullShare (acc3 V c 19 _) ∗ _) ⊢ _
  iintro ⟨HS, HR⟩
  isplitl [HS]; · iexists _; iexact HS
  iexact HR

end Cert.KernelIdeal.Hand

end
-- ==== Proof.K.Run.lean ====
/- The run of the entry function over its twelve items (eight host stretches, four calls), with every unscoped buffer named at the end. -/
import proofs.«414465_j87909390615182_2_alg».proof.Proof.K.Region0
import proofs.«414465_j87909390615182_2_alg».proof.Proof.K.Region1
import proofs.«414465_j87909390615182_2_alg».proof.Proof.K.Region2
import proofs.«414465_j87909390615182_2_alg».proof.Proof.K.Region3
import proofs.«414465_j87909390615182_2_alg».proof.Proof.Gen.KernelIdeal.Launch
import proofs.«414465_j87909390615182_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffers of a core between the twelve items of the entry function: as launched, after each host stretch, and after
    each call with its windows' arrays at what the call's proof data says they end at. -/

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev W4 : Dev nD → Valuation τ sig (Elt F) := fun c => StableHlo.after hostOps0_3 (W3 m ρ c)

abbrev V4 : (c : Dev nD) → (b : Ref sig .tc) → Buf (Elt F) ((c : Thread nD τ).loc b) := fun c b => W4 m ρ c b

def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb

theorem W5_in (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hin _).trans (A_eq0 (V4 m ρ) c w))

abbrev W6 : Dev nD → Valuation τ sig (Elt F) := fun c => StableHlo.after hostOps1 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))

abbrev W8 : Dev nD → Valuation τ sig (Elt F) := fun c => StableHlo.after hostOps2 (W7 m ρ c)

abbrev V8 : (c : Dev nD) → (b : Ref sig .tc) → Buf (Elt F) ((c : Thread nD τ).loc b) := fun c b => W8 m ρ c b

def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb

theorem W9_in (c : Dev nD) (w : Fin cfg2.W) (hin : (cfg2.win w).isOut = false) :
    W9 m ρ c (Proc.devRef .tc (Pipeline.arrRef spec2 w)) = W8 m ρ c (Proc.devRef .tc (Pipeline.arrRef spec2 w)) :=
  (W9_arr m ρ c w).trans (((dat2 (V8 m ρ) c).arrAt_in w hin _).trans (A_eq2 (V8 m ρ) c w))

abbrev W10 : Dev nD → Valuation τ sig (Elt F) := fun c => StableHlo.after hostOps3 (W9 m ρ c)

abbrev V10 : (c : Dev nD) → (b : Ref sig .tc) → Buf (Elt F) ((c : Thread nD τ).loc b) := fun c b => W10 m ρ c b

def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb

theorem W11_in (c : Dev nD) (w : Fin cfg3.W) (hin : (cfg3.win w).isOut = false) :
    W11 m ρ c (Proc.devRef .tc (Pipeline.arrRef spec3 w)) = W10 m ρ c (Proc.devRef .tc (Pipeline.arrRef spec3 w)) :=
  (W11_arr m ρ c w).trans (((dat3 (V10 m ρ) c).arrAt_in w hin _).trans (A_eq3 (V10 m ρ) c w))

abbrev W12 : Dev nD → Valuation τ sig (Elt F) := fun c => StableHlo.after hostOps4 (W11 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W6_of (c : Dev nD) (r : Ref sig .tc) (h : r ∉ hostOps1_W) : W6 m ρ c (Proc.devRef .tc r) = W5 m ρ c (Proc.devRef .tc r) :=
  StableHlo.after_of_writes_sub hostOps1 _ hostOps1_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h
theorem W10_of (c : Dev nD) (r : Ref sig .tc) (h : r ∉ hostOps3_W) : W10 m ρ c (Proc.devRef .tc r) = W9 m ρ c (Proc.devRef .tc r) :=
  StableHlo.after_of_writes_sub hostOps3 _ hostOps3_writes h
theorem W12_of (c : Dev nD) (r : Ref sig .tc) (h : r ∉ hostOps4_W) : W12 m ρ c (Proc.devRef .tc r) = W11 m ρ c (Proc.devRef .tc r) :=
  StableHlo.after_of_writes_sub hostOps4 _ hostOps4_writes h

/-- No host stretch writes `b` and no call has it as an output window's array. -/
abbrev Kept (b : Ref sig .tc) : Prop :=
  b ∉ hostOps0_W ∧ b ∉ hostOps0_1_W ∧ b ∉ hostOps0_2_W ∧ b ∉ hostOps0_3_W ∧ b ∉ hostOps1_W ∧ b ∉ hostOps2_W ∧ b ∉ hostOps3_W ∧ b ∉ hostOps4_W
    ∧ (∀ w, Pipeline.arrRef spec0 w = b → (cfg0.win w).isOut = false) ∧ (∀ w, Pipeline.arrRef spec1 w = b → (cfg1.win w).isOut = false)
    ∧ (∀ w, Pipeline.arrRef spec2 w = b → (cfg2.win w).isOut = false) ∧ (∀ w, Pipeline.arrRef spec3 w = b → (cfg3.win w).isOut = false)

theorem W5_kept (c : Dev nD) (b : Ref sig .tc) (h : ∀ w, Pipeline.arrRef spec0 w = b → (cfg0.win w).isOut = false) :
    W5 m ρ c (Proc.devRef .tc b) = W4 m ρ c (Proc.devRef .tc b) := by
  by_cases hb : ∃ w, Pipeline.arrRef spec0 w = b
  · obtain ⟨w, rfl⟩ := hb; exact W5_in m ρ c w (h w rfl)
  · exact W5_of_ne m ρ c b fun w e => hb ⟨w, e⟩

theorem W7_kept (c : Dev nD) (b : Ref sig .tc) (h : ∀ w, Pipeline.arrRef spec1 w = b → (cfg1.win w).isOut = false) :
    W7 m ρ c (Proc.devRef .tc b) = W6 m ρ c (Proc.devRef .tc b) := by
  by_cases hb : ∃ w, Pipeline.arrRef spec1 w = b
  · obtain ⟨w, rfl⟩ := hb; exact W7_in m ρ c w (h w rfl)
  · exact W7_of_ne m ρ c b fun w e => hb ⟨w, e⟩

theorem W9_kept (c : Dev nD) (b : Ref sig .tc) (h : ∀ w, Pipeline.arrRef spec2 w = b → (cfg2.win w).isOut = false) :
    W9 m ρ c (Proc.devRef .tc b) = W8 m ρ c (Proc.devRef .tc b) := by
  by_cases hb : ∃ w, Pipeline.arrRef spec2 w = b
  · obtain ⟨w, rfl⟩ := hb; exact W9_in m ρ c w (h w rfl)
  · exact W9_of_ne m ρ c b fun w e => hb ⟨w, e⟩

theorem W11_kept (c : Dev nD) (b : Ref sig .tc) (h : ∀ w, Pipeline.arrRef spec3 w = b → (cfg3.win w).isOut = false) :
    W11 m ρ c (Proc.devRef .tc b) = W10 m ρ c (Proc.devRef .tc b) := by
  by_cases hb : ∃ w, Pipeline.arrRef spec3 w = b
  · obtain ⟨w, rfl⟩ := hb; exact W11_in m ρ c w (h w rfl)
  · exact W11_of_ne m ρ c b fun w e => hb ⟨w, e⟩

/-- Such a buffer holds its launch contents wherever a call or the end of the run reads it: induct along the items. -/
theorem kept_all (c : Dev nD) (b : Ref sig .tc) (h : Kept b) :
    let x := m ((c : Thread nD τ).loc b)
    W4 m ρ c (Proc.devRef .tc b) = x ∧ W5 m ρ c (Proc.devRef .tc b) = x ∧ W6 m ρ c (Proc.devRef .tc b) = x
      ∧ W7 m ρ c (Proc.devRef .tc b) = x ∧ W8 m ρ c (Proc.devRef .tc b) = x ∧ W9 m ρ c (Proc.devRef .tc b) = x
      ∧ W11 m ρ c (Proc.devRef .tc b) = x ∧ W12 m ρ c (Proc.devRef .tc b) = x := by
  obtain ⟨a0, a1, a2, a3, a5, a7, a9, a11, r0, r1, r2, r3⟩ := h
  have h4 : W4 m ρ c (Proc.devRef .tc b) = m ((c : Thread nD τ).loc b) :=
    (W4_of m ρ c b a3).trans <| (W3_of m ρ c b a2).trans <| (W2_of m ρ c b a1).trans <| W1_of m ρ c b a0
  have h5 := (W5_kept m ρ c b r0).trans h4
  have h6 := (W6_of m ρ c b a5).trans h5
  have h7 := (W7_kept m ρ c b r1).trans h6
  have h8 := (W8_of m ρ c b a7).trans h7
  have h9 := (W9_kept m ρ c b r2).trans h8
  have h11 := (W11_kept m ρ c b r3).trans <| (W10_of m ρ c b a9).trans h9
  exact ⟨h4, h5, h6, h7, h8, h9, h11, (W12_of m ρ c b a11).trans h11⟩

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V6 m ρ) c
  | ⟨2, _⟩ => fun c => dat2 (V8 m ρ) c
  | ⟨3, _⟩ => fun c => dat3 (V10 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

theorem ΦA_of {gr W : Nat} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp

theorem of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

/-- Entering a call: the buffers split into the windows' arrays and the rest; the dues carry over. -/
theorem entry_of {B A Zr Pp O O' Pf S Lv : sProp 𝕄} (hsplit : B ⊢ iprop(A ∗ Zr)) (hpf : (BI.emp : sProp 𝕄) ⊢ Pf) (hO : O ⊢ O') :
    iprop((B ∗ Pp ∗ O) ∗ S ∗ Lv) ⊢ |={Set.univ}=> iprop(A ∗ Pf ∗ O' ∗ Pp ∗ Zr) := by
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply hO; iexact HO
  isplitl [Hp]; · iexact Hp
  iexact Hrest

/-- Leaving a call: the arrays and the rest join into the buffers again. -/
theorem exit_of {A Zr B O O' Y : sProp 𝕄} (hjoin : iprop(A ∗ Zr) ⊢ B) (hO : O ⊢ O') :
    iprop(A ∗ O ∗ Y ∗ Zr) ⊢ |={Set.univ}=> iprop(B ∗ Y ∗ O') := by
  iintro ⟨Ha, HO, HY, Hrest⟩
  imodintro
  isplitl [Ha Hrest]
  · iapply hjoin; isplitl [Ha] <;> iassumption
  isplitl [HY]; · iexact HY
  iapply hO; iexact HO

/-- A call whose body owes nothing at its cells enters and leaves with the core's dues as they were. -/
theorem owes_in {cfg : Pipeline.Cfg sig Λ₀} {c : Dev nD} (dat : Dat τ (Elt F) Unit ℕ (UR sig nD τ) ℕ cfg c)
    (ho : ∀ t, dat.owed t = 0) (hr : ∀ t, dat.recorded t = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr; · ipureintro; exact fun _ _ => Or.inl (by rw [hr]; trivial)
  iexact HO

theorem owes_out {cfg : Pipeline.Cfg sig Λ₀} {c : Dev nD} (dat : Dat τ (Elt F) Unit ℕ (UR sig nD τ) ℕ cfg c) (t)
    (ho : ∀ t, dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun w => A_eq0 (V4 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 0 c).Φ 0 = Pipeline.ΦA spec0 c from Phi0 (V4 m ρ) c 0]
    exact ΦA_of _ c _
  hout c := by
    rw [Pipeline.ownSems0_none, show (pdats m ρ 0 c).Φ (Fin.last _) = Pipeline.ΦA spec0 c from Phi0 (V4 m ρ) c _]
    exact of_ΦA _ c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (W5 m ρ c ·) ((pdats m ρ 0 c).arrAt · cfg0.N) (fun w => (W5_arr m ρ c w).symm)
      (fun b hb => W5_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V6 m ρ c) fun w => A_eq1 (V6 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 1 c).Φ 0 = Pipeline.ΦA spec1 c from Phi1 (V6 m ρ) c 0]
    exact ΦA_of _ c _
  hout c := by
    rw [Pipeline.ownSems0_none, show (pdats m ρ 1 c).Φ (Fin.last _) = Pipeline.ΦA spec1 c from Phi1 (V6 m ρ) c _]
    exact of_ΦA _ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V6 m ρ c) (W7 m ρ c ·) ((pdats m ρ 1 c).arrAt · cfg1.N) (fun w => (W7_arr m ρ c w).symm)
      (fun b hb => W7_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun w => A_eq2 (V8 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := by
    rw [show (pdats m ρ 2 c).Φ 0 = Pipeline.ΦA spec2 c from Phi2 (V8 m ρ) c 0]
    exact ΦA_of _ c _
  hout c := by
    rw [Pipeline.ownSems0_none, show (pdats m ρ 2 c).Φ (Fin.last _) = Pipeline.ΦA spec2 c from Phi2 (V8 m ρ) c _]
    exact of_ΦA _ c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (W9 m ρ c ·) ((pdats m ρ 2 c).arrAt · cfg2.N) (fun w => (W9_arr m ρ c w).symm)
      (fun b hb => W9_of_ne m ρ c b fun w e => hb (Finset.mem_image.mpr ⟨w, Finset.mem_univ _, e⟩))
    rw [Pipeline.unscopedBufs_held] at hjoin
    exact exit_of hjoin (owes_out _ _ fun _ => rfl)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun w => A_eq3 (V10 m ρ) c w
    rw [Pipeline.unscopedBufs_held] at hsplit
    exact entry_of hsplit (by unfold Pipeline.prefHeld; rw [show (Finset.univ : Finset (Fin 0)) = ∅ from rfl, BI.bigSep_empty]) (owes_in _ (fun _ => rfl) fun _ => rfl)
  hin c := (ΦA_of spec3 c _).trans (hin3 (V10 m ρ) c)
  hout c := by
    rw [Pipeline.ownSems0_none]
    exact (hout3 (V10 m ρ) c).trans (of_ΦA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (W11 m ρ c ·) ((pdats m ρ 3 c).arrAt · cfg3.N) (fun w => (W11_arr m ρ c w).symm)
      (fun b hb => W11_of_ne m ρ c b fun w e => hb (Finset.mem_image.mpr ⟨w, Finset.mem_univ _, e⟩))
    rw [Pipeline.unscopedBufs_held] at hjoin
    exact exit_of hjoin (owes_out _ _ fun _ => rfl)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .region (reg1 m ρ),
    .host (hseg hostOps2 hostOps2_sub hostOps2_fresh (W7 m ρ)),
    .region (reg2 m ρ),
    .host (hseg hostOps3 hostOps3_sub hostOps3_fresh (W9 m ρ)),
    .region (reg3 m ρ),
    .host (hseg hostOps4 hostOps4_sub hostOps4_fresh (W11 m ρ)) ]

/-- The entry function is the run of its twelve items. -/
theorem main_run (c : Dev nD) : main (F := F) c = Pipeline.Seg.run (segs m ρ) := (main_chain c).trans (by chain_rfl)

set_option backward.isDefEq.respectTransparency.types false in
/-- Every weakly fair execution terminates, faulting nowhere, with each unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show iprop(StableHlo.held (c : Thread nD τ) (Pipeline.ucRefs τ sig) (W12 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- So every argument array ends as launched. -/
theorem arg_kept {mem : (ℓ : Loc nD τ sig) → Buf (Elt F) ℓ}
    (h : ∀ c : Dev nD, ∀ b ∈ Pipeline.ucRefs τ sig, mem (((c : Thread nD τ)).1, b) = W12 m ρ c b) (c : Dev nD) (b : Ref sig .tc)
    (hu : ¬ (Proc.devRef .tc b : DevRef τ sig).isScoped) (hb : Kept b) :
    mem ((c.tc : Thread nD τ).loc b) = m ((c.tc : Thread nD τ).loc b) :=
  (h c _ (mem_uc b hu)).trans (kept_all m ρ c b hb).2.2.2.2.2.2.2

end Cert.KernelIdeal.Hand

end
-- ==== Proof.K.Carry.lean ====
/- Where a call reads an argument array it still holds its launch contents; the scales and the sorted message lists stay as the first host stretches left them. -/
import proofs.«414465_j87909390615182_2_alg».proof.Proof.K.Run

noncomputable section

namespace Cert.KernelIdeal.Hand

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  (kept_all m ρ c main_arg0 (by decide)).1
theorem W4_main_arg3 (c : Dev nD) : W4 m ρ c (Proc.devRef .tc main_arg3) = m ((c : Thread nD τ).loc main_arg3) :=
  (kept_all m ρ c main_arg3 (by decide)).1
theorem W5_main_arg4 (c : Dev nD) : W5 m ρ c (Proc.devRef .tc main_arg4) = m ((c : Thread nD τ).loc main_arg4) :=
  (kept_all m ρ c main_arg4 (by decide)).2.1
theorem W6_main_arg5 (c : Dev nD) : W6 m ρ c (Proc.devRef .tc main_arg5) = m ((c : Thread nD τ).loc main_arg5) :=
  (kept_all m ρ c main_arg5 (by decide)).2.2.1
theorem W7_main_arg6 (c : Dev nD) : W7 m ρ c (Proc.devRef .tc main_arg6) = m ((c : Thread nD τ).loc main_arg6) :=
  (kept_all m ρ c main_arg6 (by decide)).2.2.2.1
theorem W8_main_arg7 (c : Dev nD) : W8 m ρ c (Proc.devRef .tc main_arg7) = m ((c : Thread nD τ).loc main_arg7) :=
  (kept_all m ρ c main_arg7 (by decide)).2.2.2.2.1
theorem W9_main_arg8 (c : Dev nD) : W9 m ρ c (Proc.devRef .tc main_arg8) = m ((c : Thread nD τ).loc main_arg8) :=
  (kept_all m ρ c main_arg8 (by decide)).2.2.2.2.2.1
theorem W9_main_arg2 (c : Dev nD) : W9 m ρ c (Proc.devRef .tc main_arg2) = m ((c : Thread nD τ).loc main_arg2) :=
  (kept_all m ρ c main_arg2 (by decide)).2.2.2.2.2.1
theorem W11_main_arg9 (c : Dev nD) : W11 m ρ c (Proc.devRef .tc main_arg9) = m ((c : Thread nD τ).loc main_arg9) :=
  (kept_all m ρ c main_arg9 (by decide)).2.2.2.2.2.2.1
theorem W11_main_arg10 (c : Dev nD) : W11 m ρ c (Proc.devRef .tc main_arg10) = m ((c : Thread nD τ).loc main_arg10) :=
  (kept_all m ρ c main_arg10 (by decide)).2.2.2.2.2.2.1
theorem W6_main_v32 (c : Dev nD) : W6 m ρ c (Proc.devRef .tc main_v32) = W4 m ρ c (Proc.devRef .tc main_v32) :=
  (W6_of m ρ c main_v32 (by decide)).trans <| (W5_in m ρ c 1 rfl)
theorem W8_main_v32 (c : Dev nD) : W8 m ρ c (Proc.devRef .tc main_v32) = W4 m ρ c (Proc.devRef .tc main_v32) :=
  (W8_of m ρ c main_v32 (by decide)).trans <| (W7_in m ρ c 1 rfl).trans <| (W6_of m ρ c main_v32 (by decide)).trans <| (W5_in m ρ c 1 rfl)
theorem W10_main_v32 (c : Dev nD) : W10 m ρ c (Proc.devRef .tc main_v32) = W4 m ρ c (Proc.devRef .tc main_v32) :=
  (W10_of m ρ c main_v32 (by decide)).trans <| (W9_in m ρ c 1 rfl).trans <| (W8_of m ρ c main_v32 (by decide)).trans <| (W7_in m ρ c 1 rfl).trans <| (W6_of m ρ c main_v32 (by decide)).trans <| (W5_in m ρ c 1 rfl)
theorem W5_main_v24 (c : Dev nD) : W5 m ρ c (Proc.devRef .tc main_v24) = W4 m ρ c (Proc.devRef .tc main_v24) :=
  (W5_of_ne m ρ c main_v24 (by decide))
theorem W7_main_v24 (c : Dev nD) : W7 m ρ c (Proc.devRef .tc main_v24) = W4 m ρ c (Proc.devRef .tc main_v24) :=
  (W7_of_ne m ρ c main_v24 (by decide)).trans <| (W6_of m ρ c main_v24 (by decide)).trans <| (W5_of_ne m ρ c main_v24 (by decide))
theorem W9_main_v24 (c : Dev nD) : W9 m ρ c (Proc.devRef .tc main_v24) = W4 m ρ c (Proc.devRef .tc main_v24) :=
  (W9_of_ne m ρ c main_v24 (by decide)).trans <| (W8_of m ρ c main_v24 (by decide)).trans <| (W7_of_ne m ρ c main_v24 (by decide)).trans <| (W6_of m ρ c main_v24 (by decide)).trans <| (W5_of_ne m ρ c main_v24 (by decide))
theorem W5_main_v31 (c : Dev nD) : W5 m ρ c (Proc.devRef .tc main_v31) = W4 m ρ c (Proc.devRef .tc main_v31) :=
  (W5_of_ne m ρ c main_v31 (by decide))
theorem W7_main_v31 (c : Dev nD) : W7 m ρ c (Proc.devRef .tc main_v31) = W4 m ρ c (Proc.devRef .tc main_v31) :=
  (W7_of_ne m ρ c main_v31 (by decide)).trans <| (W6_of m ρ c main_v31 (by decide)).trans <| (W5_of_ne m ρ c main_v31 (by decide))
theorem W9_main_v31 (c : Dev nD) : W9 m ρ c (Proc.devRef .tc main_v31) = W4 m ρ c (Proc.devRef .tc main_v31) :=
  (W9_of_ne m ρ c main_v31 (by decide)).trans <| (W8_of m ρ c main_v31 (by decide)).trans <| (W7_of_ne m ρ c main_v31 (by decide)).trans <| (W6_of m ρ c main_v31 (by decide)).trans <| (W5_of_ne m ρ c main_v31 (by decide))

end Cert.KernelIdeal.Hand

end
-- ==== Proof.M.Spec.lean ====
/- The specification: three normalised graph-convolution layers and mean pooling, in the kernel's arrangement and in the reference's. -/
import Idealize.ShloMosaic.PureOps.Ideal
import Mathlib.Algebra.BigOperators.Group.Finset.Basic

noncomputable section

namespace Cert.Spec

open Idealize.ShloMosaic

abbrev Nn : Nat := 100000
abbrev Mm : Nat := 3300000
abbrev Gg : Nat := 64

def nrm (n : Nat) (v : BitVec 32) : BitVec 32 := if v.toInt < 0 then v + BitVec.ofNat 32 n else v

def row (v : BitVec 32) : Fin Nn := ⟨min (nrm Nn v).toInt.toNat (Nn - 1), by unfold Nn; omega⟩

def disOf (deg : Fin Nn → EReal) (n : Fin Nn) : EReal := if 0 < deg n then Ideal.rsqrt (max (deg n) 1) else 0

section Layers

variable (src dst : Fin Mm → BitVec 32) (dis : Fin Nn → EReal)

def into (n : Fin Nn) : Finset (Fin Mm) := Finset.univ.filter (fun e : Fin Mm => (dst e).toInt = (n.val : ℤ))

def lin {Din Dout : Nat} (h : Fin Nn → Fin Din → EReal) (W : Fin Din → Fin Dout → EReal) (n : Fin Nn) (j : Fin Dout) : EReal :=
  0 + ∑ k : Fin Din, h n k * W k j

def agg {D : Nat} (u : Fin Nn → Fin D → EReal) (n : Fin Nn) (j : Fin D) : EReal :=
  0 + ∑ e ∈ into dst n, u (row (src e)) j * (dis (row (src e)) * dis (row (dst e)))

def layer {Din Dout : Nat} (h : Fin Nn → Fin Din → EReal) (W : Fin Din → Fin Dout → EReal) (b : Fin Dout → EReal)
    (n : Fin Nn) (j : Fin Dout) : EReal :=
  max (agg src dst dis (lin h W) n j + b j) 0

variable (σ : Equiv.Perm (Fin Mm))

def kagg {D : Nat} (u : Fin Nn → Fin D → EReal) (n : Fin Nn) (j : Fin D) : EReal :=
  0 + ∑ e ∈ Finset.univ.filter (fun e : Fin Mm => (dst (σ e)).toInt = (n.val : ℤ)), u (row (src (σ e))) j

def kraw1 {Din Dout : Nat} (x : Fin Nn → Fin Din → EReal) (W : Fin Din → Fin Dout → EReal) (n : Fin Nn) (j : Fin Dout) : EReal :=
  lin x W n j * dis n

def krawN {Din Dout : Nat} (s : Fin Nn → Fin Din → EReal) (b : Fin Din → EReal) (W : Fin Din → Fin Dout → EReal)
    (n : Fin Nn) (j : Fin Dout) : EReal :=
  dis n * lin (fun n k => max (dis n * s n k + b k) 0) W n j

def krelu {D : Nat} (s : Fin Nn → Fin D → EReal) (b : Fin D → EReal) (n : Fin Nn) (k : Fin D) : EReal :=
  max (dis n * s n k + b k) 0

end Layers

section Pool

variable (batch : Fin Nn → BitVec 32)

def nodesOf (g : Fin Gg) : Finset (Fin Nn) := Finset.univ.filter (fun n : Fin Nn => (batch n).toInt = (g.val : ℤ))

def psum {D : Nat} (h : Fin Nn → Fin D → EReal) (g : Fin Gg) (j : Fin D) : EReal := 0 + ∑ n ∈ nodesOf batch g, h n j

def pcnt (g : Fin Gg) : EReal := 0 + ∑ _n ∈ nodesOf batch g, (1 : EReal)

def head {D Dout : Nat} (h : Fin Nn → Fin D → EReal) (Wf : Fin D → Fin Dout → EReal) (bf : Fin Dout → EReal)
    (g : Fin Gg) (j : Fin Dout) : EReal :=
  (0 + ∑ k : Fin D, Ideal.div (psum batch h g k) (max (pcnt batch g) 1) * Wf k j) + bf j

end Pool

def refOut (src dst : Fin Mm → BitVec 32) (dis : Fin Nn → EReal) (batch : Fin Nn → BitVec 32)
    (x : Fin Nn → Fin 3 → EReal) (W1 : Fin 3 → Fin 32 → EReal) (b1 : Fin 32 → EReal) (W2 : Fin 32 → Fin 16 → EReal) (b2 : Fin 16 → EReal)
    (W3 : Fin 16 → Fin 8 → EReal) (b3 : Fin 8 → EReal) (Wf : Fin 8 → Fin 3 → EReal) (bf : Fin 3 → EReal) : Fin Gg → Fin 3 → EReal :=
  head batch (layer src dst dis (layer src dst dis (layer src dst dis x W1 b1) W2 b2) W3 b3) Wf bf

def kerOut (src dst : Fin Mm → BitVec 32) (dis : Fin Nn → EReal) (σ : Equiv.Perm (Fin Mm)) (batch : Fin Nn → BitVec 32)
    (x : Fin Nn → Fin 3 → EReal) (W1 : Fin 3 → Fin 32 → EReal) (b1 : Fin 32 → EReal) (W2 : Fin 32 → Fin 16 → EReal) (b2 : Fin 16 → EReal)
    (W3 : Fin 16 → Fin 8 → EReal) (b3 : Fin 8 → EReal) (Wf : Fin 8 → Fin 3 → EReal) (bf : Fin 3 → EReal) : Fin Gg → Fin 3 → EReal :=
  let s1 := kagg src dst σ (kraw1 dis x W1)
  let s2 := kagg src dst σ (krawN dis s1 b1 W2)
  let s3 := kagg src dst σ (krawN dis s2 b2 W3)
  head batch (krelu dis s3 b3) Wf bf

end Cert.Spec

end
-- ==== Proof.LibLayerValue.lean ====
import Idealize.ShloMosaic.Lib.ValueLayout
import Idealize.ShloMosaic.PureOps.Ideal.Laws

noncomputable section

namespace Cert.Lib.LayerValue

open Idealize.ShloMosaic Idealize.ShloMosaic.ValueIdx

theorem vec00 : (![0, 0] : Fin 2 → Nat) = fun _ => 0 := funext fun a => by fin_cases a <;> rfl

/-- Every row of a one-column array broadcast over b columns is that row's one entry. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A product [a,k] x [k,b] added to the zero array has at (p, q) the sum over k of row p times column q. -/
theorem matmul_plain_apply {a k b : ℕ} {φ₁ φ₂ : FTy} (d : DotDims ⟨2, ![a, k]⟩ ⟨2, ![k, b]⟩ ⟨2, ![a, b]⟩) (hd : d = DotDims.plain a k b)
    (prec : Option ContractPrecision) (L : FVec Ideal ⟨2, ![a, k]⟩ φ₁) (R : FVec Ideal ⟨2, ![k, b]⟩ φ₂) (p : Fin a) (q : Fin b) :
    FloatOps.matmul d prec L R (constant (F := Ideal) ⟨2, ![a, b]⟩ .f32 0x00000000#32) (ix2 p q)
      = 0 + ∑ i : Fin k, L (ix2 p i) * R (ix2 i q) := by
  subst hd
  rw [Ideal.matmul_apply, constant_apply, Ideal.ofBits_zero_f32, ← Equiv.sum_comp (contrEquiv1 (DotDims.plain a k b) k rfl rfl).symm]
  refine congrArg (0 + ·) (Finset.sum_congr rfl fun i _ => ?_)
  have hi := contrEquiv1_symm_val (DotDims.plain a k b) k rfl rfl i
  have el : (DotDims.plain a k b).lhsIdx (ix2 p q) ((contrEquiv1 (DotDims.plain a k b) k rfl rfl).symm i) = ix2 p i := funext fun ax => Fin.ext (by
    match ax with
    | ⟨0, _⟩ => rfl
    | ⟨1, _⟩ => exact hi)
  have er : (DotDims.plain a k b).rhsIdx (ix2 p q) ((contrEquiv1 (DotDims.plain a k b) k rfl rfl).symm i) = ix2 i q := funext fun ax => Fin.ext (by
    match ax with
    | ⟨0, _⟩ => exact hi
    | ⟨1, _⟩ => rfl)
  rw [el, er]

/-- Row r of an array cut into blocks of B rows, each of all the columns, lies in block r / B. -/
theorem mem_rowBlock {n0 n1 B : ℕ} {off size : Fin 2 → ℕ} {inb} (i : (⟨2, ![n0, n1]⟩ : Shape).Idx) (hB : 0 < B)
    (ho0 : off 0 = (i 0).val / B * B) (hs0 : size 0 = B) (ho1 : off 1 = 0) (hs1 : size 1 = n1) :
    i ∈ (Rect.unit (s := ⟨2, ![n0, n1]⟩) off size inb).set := by
  rw [Rect.mem_set_unit, Fin.forall_fin_two, ho0, hs0, ho1, hs1, Nat.zero_add]
  exact ⟨⟨Nat.div_mul_le_self _ _, Nat.lt_div_mul_add hB⟩, Nat.zero_le _, (i 1).isLt⟩

end Cert.Lib.LayerValue

end
-- ==== Proof.K.Final0.lean ====
import proofs.«414465_j87909390615182_2_alg».proof.Proof.K.Region0
import proofs.«414465_j87909390615182_2_alg».proof.Proof.M.Spec
import proofs.«414465_j87909390615182_2_alg».proof.Proof.LibLayerValue

noncomputable section

namespace Cert.KernelIdeal.Hand

open Idealize.ShloMosaic Idealize.ShloMosaic.TcCoe Idealize.SL.Sem
open Idealize.ShloMosaic.Pipeline (Dat)
open Idealize.ShloMosaic.ValueIdx Cert.Lib.LayerValue
open Cert.KernelIdeal Cert.KernelIdeal.Gen

/-- Changes of format are the identity on the extended reals; the product is 0 plus a sum over the contracted index. -/
theorem pay0_apply (v0 : Vec Ideal S4000x3 .f32) (v2 : Vec Ideal S3x32 .f32) (v5 : Vec Ideal S4000x1 .f32) (p : Fin 4000) (q : Fin 32) :
    k0_pay1 (F := Ideal) v0 v2 v5 (ix2 p q) = (0 + ∑ k : Fin 3, v0 (ix2 p k) * v2 (ix2 k q)) * v5 (ix2 p (0 : Fin 1)) := by
  unfold k0_pay1
  simp only [truncf_apply, mulf_apply, matmul, matmul_plain_apply dot_S4000x3_S3x32_S4000x32_1_0_0_1_n_n rfl, shapeCast_self, broadcastTo_a1_ab_apply]

variable (V : (c : Dev nD) → (b : Ref sig .tc) → Buf (Elt Idealize.ShloMosaic.Ideal) ((c : Thread nD τ).loc b))

abbrev G0 (c : Dev nD) : Vec Ideal S100000x32 .bf16 := fun i =>
  Cert.Spec.kraw1 (fun n => V c main_v32 (ix2 n (0 : Fin 1))) (fun n k => V c main_arg0 (ix2 n k)) (fun k j => V c main_arg3 (ix2 k j))
    ⟨(i 0).val, (i 0).isLt⟩ ⟨(i 1).val, (i 1).isLt⟩

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the blocks of point t is row 4000 t + p of the coordinates, the scales and the output; the weight is whole. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero vec00]
  simp only [View.ld_unit_zero (S := S4000x3) vec00, View.ld_unit_zero (S := S3x32) vec00, View.ld_unit_zero (S := S4000x1) vec00]
  funext j
  obtain ⟨p, q, rfl⟩ : ∃ (p : Fin 4000) (q : Fin 32), j = ix2 p q := ⟨j 0, j 1, eq_ix2 j⟩
  obtain ⟨e00, e01, e10, e11, e20, e21, e0, e1⟩ := idx_facts0 t
  have hn := (((cfg0.win 3).blk t).view.emb (ix2 p q) 0).isLt
  have hq := (((cfg0.win 3).blk t).view.emb (ix2 p q) 1).isLt
  refine (pay0_apply _ _ _ p q).trans ?_
  have a1 : (iblk0 V c 1 t : Vec Ideal S4000x1 .f32) (ix2 p 0) = (V c main_v32 : S100000x1.Idx → EReal) (ix2 ⟨_, hn⟩ 0) :=
    congrArg (V c main_v32) (Shape.idx_ext₂ (by show win0_1.index t 0 * 4000 + 1 * p.val = win0_3.index t 0 * 4000 + 1 * p.val; omega) (by show win0_1.index t 1 * 1 + 1 * 0 = 0; omega))
  have a0 : ∀ k : Fin 3, (iblk0 V c 0 t : Vec Ideal S4000x3 .f32) (ix2 p k) = (V c main_arg0 : S100000x3.Idx → EReal) (ix2 ⟨_, hn⟩ k) :=
    fun k => congrArg (V c main_arg0) (Shape.idx_ext₂ (by show win0_0.index t 0 * 4000 + 1 * p.val = win0_3.index t 0 * 4000 + 1 * p.val; omega) (by show win0_0.index t 1 * 3 + 1 * k.val = k.val; omega))
  have a2 : ∀ k : Fin 3, (iblk0 V c 2 t : Vec Ideal S3x32 .f32) (ix2 k q) = (V c main_arg3 : S3x32.Idx → EReal) (ix2 k ⟨_, hq⟩) :=
    fun k => congrArg (V c main_arg3) (Shape.idx_ext₂ (by show win0_2.index t 0 * 3 + 1 * k.val = k.val; omega) (by show win0_2.index t 1 * 32 + 1 * q.val = win0_3.index t 1 * 32 + 1 * q.val; omega))
  rw [a1]
  simp only [a0, a2]
  rfl

/-- Row r lies in the block of point r / 4000. -/
theorem cover0 (i : S100000x32.Idx) : ∃ t : Fin cfg0.N, (cfg0.win 3).flush t = true ∧ i ∈ ((cfg0.win 3).blk t).view.set := by
  have hi0 : (i 0).val < 100000 := (i 0).isLt
  obtain ⟨t, ht⟩ : ∃ t : Fin cfg0.N, t.val = (i 0).val / 4000 := ⟨⟨(i 0).val / 4000, by rw [show cfg0.N = 25 from N_0]; omega⟩, rfl⟩
  obtain ⟨-, -, -, -, -, -, e0, e1⟩ := idx_facts0 t
  refine ⟨t, flush0_3 t, ?_⟩
  rw [show ((cfg0.win 3).blk t).view.set = (win0_3.rect t).set from View.set_slice_whole _ _]
  exact mem_rowBlock (B := 4000) i (by decide) (by show win0_3.index t 0 * 4000 = _; rw [e0, ht]) rfl (by show win0_3.index t 1 * 32 = 0; rw [e1]) rfl

theorem final0 (c : Dev nD) : (dat0 (F := Idealize.ShloMosaic.Ideal) V c).arrAt 3 cfg0.N
    = fun i => Cert.Spec.kraw1 (fun n => V c main_v32 (ix2 n (0 : Fin 1))) (fun n k => V c main_arg0 (ix2 n k)) (fun k j => V c main_arg3 (ix2 k j))
        ⟨(i 0).val, (i 0).isLt⟩ ⟨(i 1).val, (i 1).isLt⟩ :=
  (dat0 V c).arrAt_eq_of_cover 3 (G0 V c) (fun t _ => flushed0_eq V c t) cover0

end Cert.KernelIdeal.Hand

end
-- ==== Proof.K.Final1.lean ====
import proofs.«414465_j87909390615182_2_alg».proof.Proof.K.Region1
import proofs.«414465_j87909390615182_2_alg».proof.Proof.M.Spec
import proofs.«414465_j87909390615182_2_alg».proof.Proof.LibLayerValue

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Lib.LayerValue

/-- Changes of format are the identity on the extended reals; the product is 0 plus a sum over the contracted index. -/
theorem pay1_apply (v0 : Vec Ideal S4000x1 .f32) (v2 : Vec Ideal S4000x32 .f32) (v6 : Vec Ideal S1x32 .f32) (v13 : Vec Ideal S32x16 .f32)
    (p : Fin 4000) (q : Fin 16) :
    k1_pay1 (F := Ideal) v0 v2 v6 v13 (ix2 p q)
      = v0 (ix2 p 0) * (0 + ∑ k : Fin 32, max (v0 (ix2 p 0) * v2 (ix2 p k) + v6 (ix2 0 k)) 0 * v13 (ix2 k q)) := by
  unfold k1_pay1
  simp only [truncf_apply, mulf_apply, matmul, matmul_plain_apply dot_S4000x32_S32x16_S4000x16_1_0_0_1_n_n rfl, addf_apply, maximumf_apply,
    broadcast_apply, shapeCast_self, broadcastTo_a1_ab_apply, broadcastTo_1b_ab_apply, Scalar.ofBits, Ideal.ofBits_def, Ideal.ofBits_zero_f32]

variable (V : (c : Dev nD) → (b : Ref sig .tc) → Buf (Elt Ideal) ((c : Thread nD τ).loc b))

theorem hz1 : (![0, 0] : Fin 2 → Nat) = fun _ => 0 := vec00

abbrev G1 (c : Dev nD) : S100000x16.Idx → EReal := fun i =>
  Cert.Spec.krawN (fun n => (V c main_v32 : S100000x1.Idx → EReal) (ix2 n 0)) (fun n k => (V c main_v44 : S100000x32.Idx → EReal) (ix2 n k))
    (fun k => (V c main_v45 : S1x32.Idx → EReal) (ix2 0 k)) (fun k j => (V c main_arg5 : S32x16.Idx → EReal) (ix2 k j))
    ⟨(i 0).val, (i 0).isLt⟩ ⟨(i 1).val, (i 1).isLt⟩

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the blocks of point t is row 4000 t + p of the features, the scales and the output; the bias and the weight are whole. -/
theorem flushed1_eq (c : Dev nD) (t : Fin cfg1.N) :
    (dat1 (F := Ideal) V c).flushed 4 t = ((cfg1.win 4).blk t).view.read (Elt Ideal) (G1 V c) := by
  show (cfg1.win 4).cut (grid1.coords t) ((dat1 V c).after 4 t) = _
  rw [after1_4]
  unfold out1_4
  rw [View.canon_unit_zero hz1]
  simp only [View.ld_unit_zero (S := S4000x1) hz1, View.ld_unit_zero (S := S4000x32) hz1, View.ld_unit_zero (S := S1x32) hz1,
    View.ld_unit_zero (S := S32x16) hz1]
  funext j
  obtain ⟨p, q, rfl⟩ : ∃ (p : Fin 4000) (q : Fin 16), j = ix2 p q := ⟨j 0, j 1, eq_ix2 j⟩
  obtain ⟨e00, e01, e10, e11, e20, e21, e30, e31, e0, e1⟩ := idx_facts1 t
  have hn := (((cfg1.win 4).blk t).view.emb (ix2 p q) 0).isLt
  have hq := (((cfg1.win 4).blk t).view.emb (ix2 p q) 1).isLt
  refine (pay1_apply _ _ _ _ p q).trans ?_
  have a1 : (iblk1 V c 1 t : Vec Ideal S4000x1 .f32) (ix2 p 0) = (V c main_v32 : S100000x1.Idx → EReal) (ix2 ⟨_, hn⟩ 0) :=
    congrArg (V c main_v32) (Shape.idx_ext₂ (by show win1_1.index t 0 * 4000 + 1 * p.val = win1_4.index t 0 * 4000 + 1 * p.val; omega) (by show win1_1.index t 1 * 1 + 1 * 0 = 0; omega))
  have a0 : ∀ k : Fin 32, (iblk1 V c 0 t : Vec Ideal S4000x32 .f32) (ix2 p k) = (V c main_v44 : S100000x32.Idx → EReal) (ix2 ⟨_, hn⟩ k) :=
    fun k => congrArg (V c main_v44) (Shape.idx_ext₂ (by show win1_0.index t 0 * 4000 + 1 * p.val = win1_4.index t 0 * 4000 + 1 * p.val; omega) (by show win1_0.index t 1 * 32 + 1 * k.val = k.val; omega))
  have a2 : ∀ k : Fin 32, (iblk1 V c 2 t : Vec Ideal S1x32 .f32) (ix2 0 k) = (V c main_v45 : S1x32.Idx → EReal) (ix2 0 k) :=
    fun k => congrArg (V c main_v45) (Shape.idx_ext₂ (by show win1_2.index t 0 * 1 + 1 * 0 = 0; omega) (by show win1_2.index t 1 * 32 + 1 * k.val = k.val; omega))
  have a3 : ∀ k : Fin 32, (iblk1 V c 3 t : Vec Ideal S32x16 .f32) (ix2 k q) = (V c main_arg5 : S32x16.Idx → EReal) (ix2 k ⟨_, hq⟩) :=
    fun k => congrArg (V c main_arg5) (Shape.idx_ext₂ (by show win1_3.index t 0 * 32 + 1 * k.val = k.val; omega) (by show win1_3.index t 1 * 16 + 1 * q.val = win1_4.index t 1 * 16 + 1 * q.val; omega))
  rw [a1]
  simp only [a0, a2, a3]
  rfl

/-- Row r lies in the block of point r / 4000. -/
theorem cover1 (i : S100000x16.Idx) : ∃ t : Fin cfg1.N, (cfg1.win 4).flush t = true ∧ i ∈ ((cfg1.win 4).blk t).view.set := by
  have hi0 : (i 0).val < 100000 := (i 0).isLt
  obtain ⟨t, ht⟩ : ∃ t : Fin cfg1.N, t.val = (i 0).val / 4000 := ⟨⟨(i 0).val / 4000, by rw [show cfg1.N = 25 from N_1]; omega⟩, rfl⟩
  obtain ⟨-, -, -, -, -, -, -, -, e0, e1⟩ := idx_facts1 t
  refine ⟨t, flush1_4 t, ?_⟩
  rw [show ((cfg1.win 4).blk t).view.set = (win1_4.rect t).set from View.set_slice_whole _ _]
  exact mem_rowBlock (B := 4000) i (by decide) (by show win1_4.index t 0 * 4000 = _; rw [e0, ht]) rfl (by show win1_4.index t 1 * 16 = 0; rw [e1]) rfl

theorem final1 (c : Dev nD) : (dat1 (F := Ideal) V c).arrAt 4 cfg1.N
    = fun i => Cert.Spec.krawN (fun n => (V c main_v32 : S100000x1.Idx → EReal) (ix2 n 0)) (fun n k => (V c main_v44 : S100000x32.Idx → EReal) (ix2 n k))
        (fun k => (V c main_v45 : S1x32.Idx → EReal) (ix2 0 k)) (fun k j => (V c main_arg5 : S32x16.Idx → EReal) (ix2 k j))
        ⟨(i 0).val, (i 0).isLt⟩ ⟨(i 1).val, (i 1).isLt⟩ :=
  (dat1 (F := Ideal) V c).arrAt_eq_of_cover 4 (G1 V c) (fun t _ => flushed1_eq V c t) cover1

end Cert.KernelIdeal.Hand

end
-- ==== Proof.K.Final2.lean ====
import proofs.«414465_j87909390615182_2_alg».proof.Proof.K.Region2
import proofs.«414465_j87909390615182_2_alg».proof.Proof.M.Spec
import proofs.«414465_j87909390615182_2_alg».proof.Proof.LibLayerValue

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Lib.LayerValue

/-- Changes of format are the identity on the extended reals; the product is 0 plus a sum over the contracted index. -/
theorem pay2_apply (v0 : Vec Ideal S4000x1 .f32) (v2 : Vec Ideal S4000x16 .f32) (v6 : Vec Ideal S1x16 .f32) (v13 : Vec Ideal S16x8 .f32)
    (p : Fin 4000) (q : Fin 8) :
    k2_pay1 (F := Ideal) v0 v2 v6 v13 (ix2 p q)
      = v0 (ix2 p 0) * (0 + ∑ k : Fin 16, max (v0 (ix2 p 0) * v2 (ix2 p k) + v6 (ix2 0 k)) 0 * v13 (ix2 k q)) := by
  unfold k2_pay1
  simp only [truncf_apply, mulf_apply, matmul, matmul_plain_apply dot_S4000x16_S16x8_S4000x8_1_0_0_1_n_n rfl, addf_apply, maximumf_apply,
    broadcast_apply, shapeCast_self, broadcastTo_a1_ab_apply, broadcastTo_1b_ab_apply, Scalar.ofBits, Ideal.ofBits_def, Ideal.ofBits_zero_f32]

variable (V : (c : Dev nD) → (b : Ref sig .tc) → Buf (Elt Ideal) ((c : Thread nD τ).loc b))

abbrev G2 (c : Dev nD) : S100000x8.Idx → EReal := fun i =>
  Cert.Spec.krawN (fun n => (V c main_v32 : S100000x1.Idx → EReal) (ix2 n 0)) (fun n k => (V c main_v57 : S100000x16.Idx → EReal) (ix2 n k))
    (fun k => (V c main_v58 : S1x16.Idx → EReal) (ix2 0 k)) (fun k j => (V c main_arg7 : S16x8.Idx → EReal) (ix2 k j))
    ⟨(i 0).val, (i 0).isLt⟩ ⟨(i 1).val, (i 1).isLt⟩

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the blocks of point t is row 4000 t + p of the features, the scales and the output; the bias and the weight are whole. -/
theorem flushed2_eq (c : Dev nD) (t : Fin cfg2.N) :
    (dat2 (F := Ideal) V c).flushed 4 t = ((cfg2.win 4).blk t).view.read (Elt Ideal) (G2 V c) := by
  show (cfg2.win 4).cut (grid2.coords t) ((dat2 V c).after 4 t) = _
  rw [after2_4]
  unfold out2_4
  rw [View.canon_unit_zero vec00]
  simp only [View.ld_unit_zero (S := S4000x1) vec00, View.ld_unit_zero (S := S4000x16) vec00, View.ld_unit_zero (S := S1x16) vec00,
    View.ld_unit_zero (S := S16x8) vec00]
  funext j
  obtain ⟨p, q, rfl⟩ : ∃ (p : Fin 4000) (q : Fin 8), j = ix2 p q := ⟨j 0, j 1, eq_ix2 j⟩
  obtain ⟨e00, e01, e10, e11, e20, e21, e30, e31, e0, e1⟩ := idx_facts2 t
  have hn := (((cfg2.win 4).blk t).view.emb (ix2 p q) 0).isLt
  have hq := (((cfg2.win 4).blk t).view.emb (ix2 p q) 1).isLt
  refine (pay2_apply _ _ _ _ p q).trans ?_
  have a1 : (iblk2 V c 1 t : Vec Ideal S4000x1 .f32) (ix2 p 0) = (V c main_v32 : S100000x1.Idx → EReal) (ix2 ⟨_, hn⟩ 0) :=
    congrArg (V c main_v32) (Shape.idx_ext₂ (by show win2_1.index t 0 * 4000 + 1 * p.val = win2_4.index t 0 * 4000 + 1 * p.val; omega) (by show win2_1.index t 1 * 1 + 1 * 0 = 0; omega))
  have a0 : ∀ k : Fin 16, (iblk2 V c 0 t : Vec Ideal S4000x16 .f32) (ix2 p k) = (V c main_v57 : S100000x16.Idx → EReal) (ix2 ⟨_, hn⟩ k) :=
    fun k => congrArg (V c main_v57) (Shape.idx_ext₂ (by show win2_0.index t 0 * 4000 + 1 * p.val = win2_4.index t 0 * 4000 + 1 * p.val; omega) (by show win2_0.index t 1 * 16 + 1 * k.val = k.val; omega))
  have a2 : ∀ k : Fin 16, (iblk2 V c 2 t : Vec Ideal S1x16 .f32) (ix2 0 k) = (V c main_v58 : S1x16.Idx → EReal) (ix2 0 k) :=
    fun k => congrArg (V c main_v58) (Shape.idx_ext₂ (by show win2_2.index t 0 * 1 + 1 * 0 = 0; omega) (by show win2_2.index t 1 * 16 + 1 * k.val = k.val; omega))
  have a3 : ∀ k : Fin 16, (iblk2 V c 3 t : Vec Ideal S16x8 .f32) (ix2 k q) = (V c main_arg7 : S16x8.Idx → EReal) (ix2 k ⟨_, hq⟩) :=
    fun k => congrArg (V c main_arg7) (Shape.idx_ext₂ (by show win2_3.index t 0 * 16 + 1 * k.val = k.val; omega) (by show win2_3.index t 1 * 8 + 1 * q.val = win2_4.index t 1 * 8 + 1 * q.val; omega))
  rw [a1]
  simp only [a0, a2, a3]
  rfl

/-- Row r lies in the block of point r / 4000. -/
theorem cover2 (i : S100000x8.Idx) : ∃ t : Fin cfg2.N, (cfg2.win 4).flush t = true ∧ i ∈ ((cfg2.win 4).blk t).view.set := by
  have hi0 : (i 0).val < 100000 := (i 0).isLt
  obtain ⟨t, ht⟩ : ∃ t : Fin cfg2.N, t.val = (i 0).val / 4000 := ⟨⟨(i 0).val / 4000, by rw [show cfg2.N = 25 from N_2]; omega⟩, rfl⟩
  obtain ⟨-, -, -, -, -, -, -, -, e0, e1⟩ := idx_facts2 t
  refine ⟨t, flush2_4 t, ?_⟩
  rw [show ((cfg2.win 4).blk t).view.set = (win2_4.rect t).set from View.set_slice_whole _ _]
  exact mem_rowBlock (B := 4000) i (by decide) (by show win2_4.index t 0 * 4000 = _; rw [e0, ht]) rfl (by show win2_4.index t 1 * 8 = 0; rw [e1]) rfl

theorem final2 (c : Dev nD) : (dat2 (F := Ideal) V c).arrAt 4 cfg2.N = fun i =>
    Cert.Spec.krawN (fun n => (V c main_v32 : S100000x1.Idx → EReal) (ix2 n (0 : Fin 1))) (fun n k => (V c main_v57 : S100000x16.Idx → EReal) (ix2 n k))
      (fun k => (V c main_v58 : S1x16.Idx → EReal) (ix2 (0 : Fin 1) k)) (fun k j => (V c main_arg7 : S16x8.Idx → EReal) (ix2 k j))
      ⟨(i 0).val, (i 0).isLt⟩ ⟨(i 1).val, (i 1).isLt⟩ :=
  (dat2 (F := Ideal) V c).arrAt_eq_of_cover 4 (G2 V c) (fun t _ => flushed2_eq V c t) cover2

end Cert.KernelIdeal.Hand

end
-- ==== Proof.K.Final3.lean ====
/- What the pooling call leaves in its output array: the running sum after the last row block. -/
import proofs.«414465_j87909390615182_2_alg».proof.Proof.K.Region3
import Idealize.ShloMosaic.Lib.Pipeline.Value
import Idealize.ShloMosaic.Lib.Pipeline.FrameBody

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

theorem acc3_congr (c : Dev nD) {n n' : ℕ} (e : n = n') (h : n < cfg3.N) (h' : n' < cfg3.N) : acc3 V c n h = acc3 V c n' h' := by
  subst e; rfl

theorem lt20_3 (t : Fin cfg3.N) : t.val < 20 := lt_of_lt_of_eq t.isLt N_3

theorem flushed3_eq (c : Dev nD) (t : Fin cfg3.N) (hf : (cfg3.win 4).flush t = true) :
    (dat3 V c).flushed 4 t = ((cfg3.win 4).blk t).view.read (Elt F) (acc3 V c 19 (by rw [show cfg3.N = 20 from N_3]; omega)) := by
  have ht : t.val = 19 := by have := (flush3_4 t).mp hf; have := lt20_3 t; omega
  show (cfg3.win 4).cut (grid3.coords t) ((dat3 V c).after 4 t) = _
  rw [after3_4, acc3_congr V c ht t.isLt (by rw [show cfg3.N = 20 from N_3]; omega)]
  funext j
  rw [View.read_apply]
  show acc3 V c 19 _ ((cfg3.win 4).xinj (grid3.coords t) j) = acc3 V c 19 _ (((cfg3.win 4).blk t).view.emb j)
  congr 1
  funext a; apply Fin.ext
  match a with
  | ⟨0, _⟩ => show (j 0).val = win3_4.index t (0 : Fin 2) * 128 + 1 * (j 0).val; rw [show win3_4.index t (0 : Fin 2) = 0 from rfl]; omega
  | ⟨1, _⟩ => show (j 1).val = win3_4.index t (1 : Fin 2) * 9 + 1 * (j 1).val; rw [show win3_4.index t (1 : Fin 2) = 0 from rfl]; omega

theorem mem_blk3 (t : Fin cfg3.N) (i : S128x9.Idx) :
    i ∈ ((cfg3.win 4).blk t).view.set ↔ ∀ a : Fin 2, win3_4.index t a * S128x9.size a ≤ (i a).val ∧ (i a).val < win3_4.index t a * S128x9.size a + S128x9.size a := by
  show i ∈ ((View.whole main_v73).slice (win3_4.rect t)).set ↔ _
  rw [View.set_slice_whole, Rect.mem_set_unit]
  exact Iff.rfl

theorem covered3_4 (i : S128x9.Idx) : ∃ t : Fin cfg3.N, (cfg3.win 4).flush t = true ∧ i ∈ ((cfg3.win 4).blk t).view.set := by
  have hi0 : (i 0).val < 128 := (i 0).isLt
  have hi1 : (i 1).val < 9 := (i 1).isLt
  have h19 : 19 < cfg3.N := by rw [show cfg3.N = 20 from N_3]; omega
  refine ⟨⟨19, h19⟩, (flush3_4 ⟨19, h19⟩).mpr rfl, ?_⟩
  rw [mem_blk3]
  intro a
  match a with
  | ⟨0, _⟩ => show win3_4.index ⟨19, h19⟩ (0 : Fin 2) * 128 ≤ (i 0).val ∧ (i 0).val < win3_4.index ⟨19, h19⟩ (0 : Fin 2) * 128 + 128; rw [show win3_4.index ⟨19, h19⟩ (0 : Fin 2) = 0 from rfl]; omega
  | ⟨1, _⟩ => show win3_4.index ⟨19, h19⟩ (1 : Fin 2) * 9 ≤ (i 1).val ∧ (i 1).val < win3_4.index ⟨19, h19⟩ (1 : Fin 2) * 9 + 9; rw [show win3_4.index ⟨19, h19⟩ (1 : Fin 2) = 0 from rfl]; omega

theorem final3 (c : Dev nD) : (dat3 (F := F) V c).arrAt 4 cfg3.N = acc3 V c 19 (by rw [show cfg3.N = 20 from N_3]; omega) :=
  (dat3 V c).arrAt_eq_of_cover 4 _ (fun t hf => flushed3_eq V c t hf) covered3_4

end Cert.KernelIdeal.Hand
end
-- ==== Proof.LibGcnAlgebra.lean ====
/- The algebra of symmetric normalisation over the extended reals. -/
import Mathlib.Data.EReal.Operations
import Mathlib.Algebra.BigOperators.Group.Finset.Basic
import Idealize.ShloMosaic.Lib.IdealHost

namespace Cert.Lib.GcnAlgebra

open Idealize.ShloMosaic

theorem mul_sum_of_nonneg {ι : Type} (s : Finset ι) (c : EReal) (h0 : 0 ≤ c) (h1 : c ≠ ⊤) (f : ι → EReal) :
    c * ∑ i ∈ s, f i = ∑ i ∈ s, c * f i := by
  classical
  induction s using Finset.induction_on with
  | empty => rw [Finset.sum_empty, Finset.sum_empty, mul_zero]
  | insert a s ha ih =>
    rw [Finset.sum_insert ha, Finset.sum_insert ha, EReal.left_distrib_of_nonneg_of_ne_top h0 h1, ih]

theorem agg_eq {N M D : Nat} (dis : Fin N → EReal) (h0 : ∀ n, 0 ≤ dis n) (h1 : ∀ n, dis n ≠ ⊤)
    (src dst : Fin M → BitVec 32) (σ : Equiv.Perm (Fin M)) (row : BitVec 32 → Fin N)
    (hrow : ∀ (v : BitVec 32) (n : Fin N), v.toInt = (n.val : ℤ) → row v = n)
    (u h : Fin N → Fin D → EReal) (hu : ∀ n j, u n j = h n j * dis n) (n : Fin N) (j : Fin D) :
    dis n * (0 + ∑ e ∈ Finset.univ.filter (fun e : Fin M => (dst (σ e)).toInt = (n.val : ℤ)), u (row (src (σ e))) j)
      = 0 + ∑ e ∈ Finset.univ.filter (fun e : Fin M => (dst e).toInt = (n.val : ℤ)),
          h (row (src e)) j * (dis (row (src e)) * dis (row (dst e))) := by
  rw [zero_add, zero_add, mul_sum_of_nonneg _ _ (h0 n) (h1 n)]
  refine Finset.sum_equiv σ (fun e => ?_) (fun e he => ?_)
  · rw [Finset.mem_filter, Finset.mem_filter]
    exact ⟨fun hh => ⟨Finset.mem_univ _, hh.2⟩, fun hh => ⟨Finset.mem_univ _, hh.2⟩⟩
  · have hd : (dst (σ e)).toInt = (n.val : ℤ) := (Finset.mem_filter.mp he).2
    rw [hu, hrow _ _ hd, mul_comm (dis n), mul_assoc]

theorem agg_eq' {N M D : Nat} (dis : Fin N → EReal) (h0 : ∀ n, 0 ≤ dis n) (h1 : ∀ n, dis n ≠ ⊤)
    (src dst : Fin M → BitVec 32) (σ : Equiv.Perm (Fin M)) (row : BitVec 32 → Fin N)
    (hrow : ∀ (v : BitVec 32) (n : Fin N), v.toInt = (n.val : ℤ) → row v = n)
    (u h : Fin N → Fin D → EReal) (hu : ∀ n j, u n j = h n j * dis n) (n : Fin N) (j : Fin D) :
    (0 + ∑ e ∈ Finset.univ.filter (fun e : Fin M => (dst (σ e)).toInt = (n.val : ℤ)), u (row (src (σ e))) j) * dis n
      = 0 + ∑ e ∈ Finset.univ.filter (fun e : Fin M => (dst e).toInt = (n.val : ℤ)),
          h (row (src e)) j * (dis (row (src e)) * dis (row (dst e))) := by
  rw [mul_comm]
  exact agg_eq dis h0 h1 src dst σ row hrow u h hu n j

theorem agg_eq_left {N M D : Nat} (dis : Fin N → EReal) (h0 : ∀ n, 0 ≤ dis n) (h1 : ∀ n, dis n ≠ ⊤)
    (src dst : Fin M → BitVec 32) (σ : Equiv.Perm (Fin M)) (row : BitVec 32 → Fin N)
    (hrow : ∀ (v : BitVec 32) (n : Fin N), v.toInt = (n.val : ℤ) → row v = n)
    (u h : Fin N → Fin D → EReal) (hu' : ∀ n j, u n j = dis n * h n j) (n : Fin N) (j : Fin D) :
    dis n * (0 + ∑ e ∈ Finset.univ.filter (fun e : Fin M => (dst (σ e)).toInt = (n.val : ℤ)), u (row (src (σ e))) j)
      = 0 + ∑ e ∈ Finset.univ.filter (fun e : Fin M => (dst e).toInt = (n.val : ℤ)),
          h (row (src e)) j * (dis (row (src e)) * dis (row (dst e))) :=
  agg_eq dis h0 h1 src dst σ row hrow u h (fun n j => (hu' n j).trans (mul_comm _ _)) n j

theorem rsqrt_nonneg_ne_top_of_one_le (x : EReal) (hx : 1 ≤ x) : 0 ≤ Ideal.rsqrt x ∧ Ideal.rsqrt x ≠ ⊤ := by
  induction x using EReal.rec with
  | bot => exact absurd (le_bot_iff.mp hx) (EReal.coe_ne_bot 1)
  | top => rw [Ideal.rsqrt_top]; exact ⟨le_refl _, EReal.zero_ne_top⟩
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩

theorem dis_nonneg (deg : EReal) : 0 ≤ (if 0 < deg then Ideal.rsqrt (max deg 1) else 0 : EReal) := by
  by_cases h : 0 < deg
  · rw [if_pos h]; exact (rsqrt_nonneg_ne_top_of_one_le _ (le_max_right _ _)).1
  · rw [if_neg h]

theorem dis_ne_top (deg : EReal) : (if 0 < deg then Ideal.rsqrt (max deg 1) else 0 : EReal) ≠ ⊤ := by
  by_cases h : 0 < deg
  · rw [if_pos h]; exact (rsqrt_nonneg_ne_top_of_one_le _ (le_max_right _ _)).2
  · rw [if_neg h]; exact EReal.zero_ne_top

theorem dis_vec {s : Shape} (deg c0 c1 c0' : FVec Ideal s .f32) (i : s.Idx)
    (h0 : c0 i = (0 : EReal)) (h1 : c1 i = (1 : EReal)) (h0' : c0' i = (0 : EReal)) :
    select (cmpf .ogt deg c0) (Host.rsqrt (maximumf deg c1)) c0' i
      = (if 0 < deg i then Ideal.rsqrt (max (deg i) 1) else 0 : EReal) := by
  show Scalar.select (Ideal.cmp .ogt (deg i) (c0 i)) (Ideal.rsqrt (max (deg i) (c1 i))) (c0' i) = _
  rw [h0, h1, h0']
  show (if Ideal.cmp .ogt (deg i) 0 = 1 then Ideal.rsqrt (max (deg i) 1) else (0 : EReal)) = _
  unfold Ideal.cmp
  by_cases h : 0 < deg i
  · rw [if_pos h, if_pos (by simp [h])]
  · rw [if_neg h, if_neg (by simp [h])]

end Cert.Lib.GcnAlgebra
-- ==== Proof.K.Pool.lean ====
/- The pooling call: its running sums over the row blocks are, per graph, sums over the graph's nodes. -/
import proofs.«414465_j87909390615182_2_alg».proof.Proof.K.Region3
import proofs.«414465_j87909390615182_2_alg».proof.Proof.M.Spec
import proofs.«414465_j87909390615182_2_alg».proof.Proof.LibGcnAlgebra
import proofs.«414465_j87909390615182_2_alg».proof.Proof.LibLayerValue
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Idealize.ShloMosaic.TcCoe
open Idealize.ShloMosaic.Pipeline (Dat Cfg Window)
open Cert.KernelIdeal Cert.KernelIdeal.Gen

theorem lhs_pool_0 (i : S128x9.Idx) (q : dot_S5000x128_S5000x9_S128x9_0_0_1_1_n_n.contr.Idx) :
    (dot_S5000x128_S5000x9_S128x9_0_0_1_1_n_n.lhsIdx i q 0).val = (q ⟨0, by decide⟩).val :=
  dot_S5000x128_S5000x9_S128x9_0_0_1_1_n_n.lhsIdx_val_of_single rfl i q
theorem lhs_pool_1 (i : S128x9.Idx) (q : dot_S5000x128_S5000x9_S128x9_0_0_1_1_n_n.contr.Idx) :
    (dot_S5000x128_S5000x9_S128x9_0_0_1_1_n_n.lhsIdx i q 1).val = (i 0).val := by
  unfold DotDims.lhsIdx
  rw [dif_neg (show ¬(1 : Fin S5000x128.rank) ∈ dot_S5000x128_S5000x9_S128x9_0_0_1_1_n_n.lhsBatch by decide), dif_pos (show (1 : Fin S5000x128.rank) ∈ dot_S5000x128_S5000x9_S128x9_0_0_1_1_n_n.lhsNonContracting by decide)]
  rfl
theorem rhs_pool_0 (i : S128x9.Idx) (q : dot_S5000x128_S5000x9_S128x9_0_0_1_1_n_n.contr.Idx) :
    (dot_S5000x128_S5000x9_S128x9_0_0_1_1_n_n.rhsIdx i q 0).val = (q ⟨0, by decide⟩).val :=
  dot_S5000x128_S5000x9_S128x9_0_0_1_1_n_n.rhsIdx_val_of_single rfl i q
theorem rhs_pool_1 (i : S128x9.Idx) (q : dot_S5000x128_S5000x9_S128x9_0_0_1_1_n_n.contr.Idx) :
    (dot_S5000x128_S5000x9_S128x9_0_0_1_1_n_n.rhsIdx i q 1).val = (i 1).val := by
  unfold DotDims.rhsIdx
  rw [dif_neg (show ¬(1 : Fin S5000x9.rank) ∈ dot_S5000x128_S5000x9_S128x9_0_0_1_1_n_n.rhsBatch by decide), dif_pos (show (1 : Fin S5000x9.rank) ∈ dot_S5000x128_S5000x9_S128x9_0_0_1_1_n_n.rhsNonContracting by decide)]
  rfl

def pool_oneHot (v16 : Vec Ideal S5000x1 .i32) : FVec Ideal S5000x128 .bf16 :=
  truncf .bf16 (sitofp .f32 (extui 32 (cmpi .eq (iota .tc S5000x128 32 [1] iota_S5000x128_d1_w32)
    (broadcastTo S5000x128 (shapeCast S5000x1 v16 shapeCasts_S5000x1_S5000x1) broadcasts_S5000x1_S5000x128)) natLt_1_32)) bitsLt_bf16_f32

def pool_feat (v3 : Vec Ideal S5000x1 .f32) (v5 : Vec Ideal S5000x8 .f32) (v9 : Vec Ideal S1x8 .f32) : FVec Ideal S5000x9 .bf16 :=
  concatenate S5000x9 1 [⟨S5000x8, truncf .bf16 (maximumf (addf (mulf (broadcastTo S5000x8 (shapeCast S5000x1 v3 shapeCasts_S5000x1_S5000x1) broadcasts_S5000x1_S5000x8)
      (shapeCast S5000x8 v5 shapeCasts_S5000x8_S5000x8)) (broadcastTo S5000x8 (shapeCast S1x8 v9 shapeCasts_S1x8_S1x8) broadcasts_S1x8_S5000x8))
      (broadcast S5000x8 (Scalar.ofBits (F := Ideal) .f32 0x00000000#32))) bitsLt_bf16_f32⟩,
    ⟨S5000x1, broadcast S5000x1 (Scalar.ofBits (F := Ideal) .bf16 0x3F80#16)⟩] concatenates_S5000x8_S5000x1_S5000x9_d1

theorem pool_pay2_eq (v3 : Vec Ideal S5000x1 .f32) (v5 : Vec Ideal S5000x8 .f32) (v9 : Vec Ideal S1x8 .f32) (v16 : Vec Ideal S5000x1 .i32) (v27 : Vec Ideal S128x9 .f32) :
    k3_pay2 v3 v5 v9 v16 v27 = shapeCast S128x9 (addf v27 (matmul dot_S5000x128_S5000x9_S128x9_0_0_1_1_n_n none (pool_oneHot v16) (pool_feat v3 v5 v9) (constant (F := Ideal) S128x9 .f32 0x00000000#32))) shapeCasts_S128x9_S128x9 := rfl

theorem pool_toInt_ofNat_small (g : ℕ) (hg : g < 128) : (BitVec.ofNat 32 g).toInt = (g : ℤ) := by
  have h1 : (BitVec.ofNat 32 g).toNat = g := by rw [BitVec.toNat_ofNat]; omega
  rw [BitVec.toInt_eq_toNat_of_lt (by rw [h1]; omega), h1]

theorem pool_toInt_eq_iff_ofNat (v : BitVec 32) (g : ℕ) (hg : g < 128) : v = BitVec.ofNat 32 g ↔ v.toInt = (g : ℤ) := by
  constructor
  · rintro rfl
    exact pool_toInt_ofNat_small g hg
  · intro h
    apply BitVec.eq_of_toInt_eq
    rw [h, pool_toInt_ofNat_small g hg]

theorem pool_oneHot_apply (v16 : Vec Ideal S5000x1 .i32) (r : Fin 5000) (g : Fin 128) :
    pool_oneHot v16 (ix2 r g) = if v16 (ix2 r 0) = BitVec.ofNat 32 g.val then (1 : EReal) else 0 := by
  unfold pool_oneHot
  rw [truncf_apply, sitofp_apply, extui_apply]
  show FloatOps.sitofp (F := Ideal) .f32 ((IntOp.cmpi .eq (iota .tc S5000x128 32 [1] iota_S5000x128_d1_w32 (ix2 r g))
    (broadcastTo S5000x128 (shapeCast S5000x1 v16 shapeCasts_S5000x1_S5000x1) broadcasts_S5000x1_S5000x128 (ix2 r g))).setWidth 32) = _
  rw [iota_single_apply, Cert.Lib.LayerValue.broadcastTo_a1_ab_apply, shapeCast_self]
  show (((((IntOp.cmpi .eq (BitVec.ofNat 32 g.val) (v16 (ix2 r 0))).setWidth 32).toInt : ℤ) : ℝ) : EReal) = _
  by_cases h : v16 (ix2 r 0) = BitVec.ofNat 32 g.val
  · rw [if_pos h, h]
    have : IntOp.cmpi .eq (BitVec.ofNat 32 g.val) (BitVec.ofNat 32 g.val) = 1#1 := by simp [IntOp.cmpi]
    rw [this]
    norm_num
  · rw [if_neg h]
    have : IntOp.cmpi .eq (BitVec.ofNat 32 g.val) (v16 (ix2 r 0)) = 0#1 := by
      simp only [IntOp.cmpi]
      have : (BitVec.ofNat 32 g.val == v16 (ix2 r 0)) = false := by
        rw [beq_eq_false_iff_ne]; exact fun e => h e.symm
      rw [this]; rfl
    rw [this]
    norm_num

theorem pool_feat_apply_lt (v3 : Vec Ideal S5000x1 .f32) (v5 : Vec Ideal S5000x8 .f32) (v9 : Vec Ideal S1x8 .f32) (r : Fin 5000) (j : Fin 9) (h : j.val < 8) :
    pool_feat v3 v5 v9 (ix2 r j) = max (v3 (ix2 r 0) * v5 (ix2 r ⟨j.val, h⟩) + v9 (ix2 0 ⟨j.val, h⟩)) 0 := by
  unfold pool_feat
  refine (concatenate_pair_apply_left (t := S5000x9) (s₁ := S5000x8) (s₂ := S5000x1) _ _ _ _ (ix2 r j) rfl (ix2 r (⟨j.val, h⟩ : Fin 8)) (fun b => by match b with | ⟨0, _⟩ => rfl | ⟨1, _⟩ => rfl)).trans ?_
  rw [truncf_apply, maximumf_apply, addf_apply, mulf_apply, Cert.Lib.LayerValue.broadcastTo_a1_ab_apply, broadcastTo_1b_ab_apply, shapeCast_self, shapeCast_self, shapeCast_self, broadcast_apply]
  show max _ (Ideal.ofBits .f32 0x00000000#32) = _
  rw [Ideal.ofBits_zero_f32]

theorem pool_feat_apply_ge (v3 : Vec Ideal S5000x1 .f32) (v5 : Vec Ideal S5000x8 .f32) (v9 : Vec Ideal S1x8 .f32) (r : Fin 5000) (j : Fin 9) (h : ¬ j.val < 8) :
    pool_feat v3 v5 v9 (ix2 r j) = 1 := by
  unfold pool_feat
  have hj : j.val = 8 := by have := j.isLt; omega
  refine (concatenate_pair_apply_right (t := S5000x9) (s₁ := S5000x8) (s₂ := S5000x1) _ _ _ _ (ix2 r j) rfl rfl (ix2 r (0 : Fin 1)) (fun b hb => by
    match b with
    | ⟨0, _⟩ => rfl
    | ⟨1, _⟩ => exact absurd rfl hb) (by show 0 + 8 = j.val; omega)).trans ?_
  rw [broadcast_apply]
  exact Ideal.ofBits_one_bf16

theorem pool_pay2_apply (v3 : Vec Ideal S5000x1 .f32) (v5 : Vec Ideal S5000x8 .f32) (v9 : Vec Ideal S1x8 .f32) (v16 : Vec Ideal S5000x1 .i32) (v27 : Vec Ideal S128x9 .f32)
    (g : Fin 128) (j : Fin 9) :
    k3_pay2 v3 v5 v9 v16 v27 (ix2 g j) = v27 (ix2 g j) + (0 + ∑ r : Fin 5000, (if v16 (ix2 r 0) = BitVec.ofNat 32 g.val then (1 : EReal) else 0)
      * (if h : j.val < 8 then max (v3 (ix2 r 0) * v5 (ix2 r ⟨j.val, h⟩) + v9 (ix2 0 ⟨j.val, h⟩)) 0 else 1)) := by
  rw [pool_pay2_eq, shapeCast_self, addf_apply]
  simp only [matmul]
  rw [Ideal.matmul_apply, constant_apply, Ideal.ofBits_zero_f32, ← Equiv.sum_comp (contrEquiv1 dot_S5000x128_S5000x9_S128x9_0_0_1_1_n_n 5000 rfl rfl).symm]
  refine congrArg (fun x => v27 (ix2 g j) + (0 + x)) (Finset.sum_congr rfl fun r _ => ?_)
  have hk := contrEquiv1_symm_val dot_S5000x128_S5000x9_S128x9_0_0_1_1_n_n 5000 rfl rfl r
  have el : dot_S5000x128_S5000x9_S128x9_0_0_1_1_n_n.lhsIdx (ix2 g j) ((contrEquiv1 dot_S5000x128_S5000x9_S128x9_0_0_1_1_n_n 5000 rfl rfl).symm r) = ix2 r g := funext fun a => Fin.ext (by
    match a with
    | ⟨0, _⟩ => exact (lhs_pool_0 _ _).trans hk
    | ⟨1, _⟩ => exact lhs_pool_1 _ _)
  have er : dot_S5000x128_S5000x9_S128x9_0_0_1_1_n_n.rhsIdx (ix2 g j) ((contrEquiv1 dot_S5000x128_S5000x9_S128x9_0_0_1_1_n_n 5000 rfl rfl).symm r) = ix2 r j := funext fun a => Fin.ext (by
    match a with
    | ⟨0, _⟩ => exact (rhs_pool_0 _ _).trans hk
    | ⟨1, _⟩ => exact rhs_pool_1 _ _)
  rw [el, er, pool_oneHot_apply]
  by_cases h : j.val < 8
  · rw [dif_pos h, pool_feat_apply_lt _ _ _ r j h]
  · rw [dif_neg h, pool_feat_apply_ge _ _ _ r j h]

theorem pool_pay1_apply (g : Fin 128) (j : Fin 9) : k3_pay1 (F := Ideal) (ix2 g j) = 0 := by
  show Ideal.ofBits .f32 0x00000000#32 = 0
  exact Ideal.ofBits_zero_f32

variable (V : (c : Dev nD) → (b : Ref sig .tc) → Buf (Elt Ideal) ((c : Thread nD τ).loc b))

theorem pool_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem pool_row_lt (t : Fin cfg3.N) (r : Fin 5000) : 5000 * t.val + r.val < 100000 := by
  have h := t.isLt; have h20 : cfg3.N = 20 := N_3; omega

theorem pool_iblk_0 (c : Dev nD) (t : Fin cfg3.N) (r : Fin 5000) (k : Fin 8) :
    iblk3 V c 0 t (ix2 r k) = V c main_v70 (ix2 ⟨5000 * t.val + r.val, pool_row_lt t r⟩ k) :=
  congrArg (V c main_v70) (Shape.idx_ext₂ (by have := (pool_idx t).1; show win3_0.index t 0 * 5000 + 1 * r.val = 5000 * t.val + r.val; omega)
    (by have := (pool_idx t).2.1; show win3_0.index t 1 * 8 + 1 * k.val = k.val; omega))
theorem pool_iblk_1 (c : Dev nD) (t : Fin cfg3.N) (r : Fin 5000) :
    iblk3 V c 1 t (ix2 r (0 : Fin 1)) = V c main_v32 (ix2 ⟨5000 * t.val + r.val, pool_row_lt t r⟩ (0 : Fin 1)) :=
  congrArg (V c main_v32) (Shape.idx_ext₂ (by have := (pool_idx t).2.2.1; show win3_1.index t 0 * 5000 + 1 * r.val = 5000 * t.val + r.val; omega)
    (by have := (pool_idx t).2.2.2.1; show win3_1.index t 1 * 1 + 1 * 0 = 0; omega))
theorem pool_iblk_2 (c : Dev nD) (t : Fin cfg3.N) (k : Fin 8) :
    iblk3 V c 2 t (ix2 (0 : Fin 1) k) = V c main_v72 (ix2 (0 : Fin 1) k) :=
  congrArg (V c main_v72) (Shape.idx_ext₂ (by have := (pool_idx t).2.2.2.2.1; show win3_2.index t 0 * 1 + 1 * 0 = 0; omega)
    (by have := (pool_idx t).2.2.2.2.2.1; show win3_2.index t 1 * 8 + 1 * k.val = k.val; omega))
theorem pool_iblk_3 (c : Dev nD) (t : Fin cfg3.N) (r : Fin 5000) :
    iblk3 V c 3 t (ix2 r (0 : Fin 1)) = V c main_v71 (ix2 ⟨5000 * t.val + r.val, pool_row_lt t r⟩ (0 : Fin 1)) :=
  congrArg (V c main_v71) (Shape.idx_ext₂ (by have := (pool_idx t).2.2.2.2.2.2.1; show win3_3.index t 0 * 5000 + 1 * r.val = 5000 * t.val + r.val; omega)
    (by have := (pool_idx t).2.2.2.2.2.2.2; show win3_3.index t 1 * 1 + 1 * 0 = 0; omega))

abbrev pool_batch (c : Dev nD) (n : Fin 100000) : BitVec 32 := V c main_v71 (ix2 n (0 : Fin 1))
abbrev pool_dis (c : Dev nD) (n : Fin 100000) : EReal := V c main_v32 (ix2 n (0 : Fin 1))
abbrev pool_s (c : Dev nD) (n : Fin 100000) (k : Fin 8) : EReal := V c main_v70 (ix2 n k)
abbrev pool_b (c : Dev nD) (k : Fin 8) : EReal := V c main_v72 (ix2 (0 : Fin 1) k)

def pool_term (c : Dev nD) (g : Fin 128) (j : Fin 9) (m : ℕ) : EReal :=
  if hm : m < 100000 then
    (if pool_batch V c ⟨m, hm⟩ = BitVec.ofNat 32 g.val then (1 : EReal) else 0)
      * (if h : j.val < 8 then max (pool_dis V c ⟨m, hm⟩ * pool_s V c ⟨m, hm⟩ ⟨j.val, h⟩ + pool_b V c ⟨j.val, h⟩) 0 else 1)
  else 0

theorem pool_tile (c : Dev nD) (t : Fin cfg3.N) (g : Fin 128) (j : Fin 9) (v27 : Vec Ideal S128x9 .f32) :
    k3_pay2 (iblk3 V c 1 t) (iblk3 V c 0 t) (iblk3 V c 2 t) (iblk3 V c 3 t) v27 (ix2 g j)
      = v27 (ix2 g j) + ∑ r ∈ Finset.range 5000, pool_term V c g j (5000 * t.val + r) := by
  rw [pool_pay2_apply, zero_add, Finset.sum_range]
  refine congrArg (v27 (ix2 g j) + ·) (Finset.sum_congr rfl fun r _ => ?_)
  unfold pool_term
  rw [dif_pos (pool_row_lt t r), pool_iblk_3, pool_iblk_1]
  by_cases h : j.val < 8
  · rw [dif_pos h, dif_pos h, pool_iblk_0, pool_iblk_2]
  · rw [dif_neg h, dif_neg h]

theorem pool_acc3 (c : Dev nD) (g : Fin 128) (j : Fin 9) : ∀ (n : ℕ) (h : n < cfg3.N),
    acc3 (F := Ideal) V c n h (ix2 g j) = ∑ m ∈ Finset.range (5000 * (n + 1)), pool_term V c g j m
  | 0, h => by
    rw [acc3, pool_tile, pool_pay1_apply, zero_add]
    refine Finset.sum_congr rfl fun r _ => ?_
    show pool_term V c g j (5000 * 0 + r) = _
    rw [Nat.mul_zero, Nat.zero_add]
  | n + 1, h => by
    rw [acc3, pool_tile, pool_acc3 c g j n (Nat.lt_of_succ_lt h), show 5000 * (n + 1 + 1) = 5000 * (n + 1) + 5000 by omega, Finset.sum_range_add]

theorem pool_sum_all (c : Dev nD) (g : Fin Cert.Spec.Gg) (g' : Fin 128) (hg : g'.val = g.val) (j : Fin 9) :
    ∑ m ∈ Finset.range 100000, pool_term V c g' j m
      = ∑ n ∈ Cert.Spec.nodesOf (pool_batch V c) g,
          (if h : j.val < 8 then max (pool_dis V c n * pool_s V c n ⟨j.val, h⟩ + pool_b V c ⟨j.val, h⟩) 0 else 1) := by
  have hlt : g.val < 128 := Nat.lt_trans g.isLt (by decide)
  unfold Cert.Spec.nodesOf
  rw [Finset.sum_range, Finset.filter_congr (fun n _ => (pool_toInt_eq_iff_ofNat (pool_batch V c n) g.val hlt).symm), Finset.sum_filter]
  refine Finset.sum_congr rfl fun n _ => ?_
  unfold pool_term
  rw [dif_pos n.isLt, hg]
  show (if pool_batch V c n = BitVec.ofNat 32 g.val then (1 : EReal) else 0) * _ = _
  by_cases hp : pool_batch V c n = BitVec.ofNat 32 g.val
  · rw [if_pos hp, if_pos hp, one_mul]
  · rw [if_neg hp, if_neg hp, zero_mul]

theorem acc3_last (c : Dev nD) (g : Fin Cert.Spec.Gg) :
    (∀ k : Fin 8, acc3 (F := Ideal) V c 19 (by rw [show cfg3.N = 20 from N_3]; omega)
          (ix2 (⟨g.val, Nat.lt_trans g.isLt (by decide)⟩ : Fin 128) (⟨k.val, Nat.lt_succ_of_lt k.isLt⟩ : Fin 9))
        = Cert.Spec.psum (fun n : Fin Cert.Spec.Nn => (V c main_v71 (ix2 n (0 : Fin 1)) : BitVec 32))
            (Cert.Spec.krelu (fun n : Fin Cert.Spec.Nn => (V c main_v32 (ix2 n (0 : Fin 1)) : EReal))
              (fun (n : Fin Cert.Spec.Nn) (k : Fin 8) => (V c main_v70 (ix2 n k) : EReal)) (fun k : Fin 8 => (V c main_v72 (ix2 (0 : Fin 1) k) : EReal))) g k)
    ∧ acc3 (F := Ideal) V c 19 (by rw [show cfg3.N = 20 from N_3]; omega) (ix2 (⟨g.val, Nat.lt_trans g.isLt (by decide)⟩ : Fin 128) (8 : Fin 9))
        = Cert.Spec.pcnt (fun n : Fin Cert.Spec.Nn => (V c main_v71 (ix2 n (0 : Fin 1)) : BitVec 32)) g := by
  refine ⟨fun k => ?_, ?_⟩
  · rw [pool_acc3]
    show ∑ m ∈ Finset.range 100000, _ = _
    rw [pool_sum_all V c g _ rfl]
    unfold Cert.Spec.psum
    rw [zero_add]
    refine Finset.sum_congr rfl fun n _ => ?_
    rw [dif_pos (show (⟨k.val, Nat.lt_succ_of_lt k.isLt⟩ : Fin 9).val < 8 from k.isLt)]
    rfl
  · rw [pool_acc3]
    show ∑ m ∈ Finset.range 100000, _ = _
    rw [pool_sum_all V c g _ rfl]
    unfold Cert.Spec.pcnt
    rw [zero_add]
    refine Finset.sum_congr rfl fun n _ => ?_
    rw [dif_neg (show ¬ (8 : Fin 9).val < 8 by decide)]

end Cert.KernelIdeal.Hand

end
-- ==== Proof.LibGatherRows.lean ====
/- A row gather read at an index. -/
import Idealize.ShloMosaic.PureOps.ShapeOps
import Idealize.ShloMosaic.Lib.ValueIdx

namespace Cert.Lib.GatherRows

open Idealize.ShloMosaic Idealize.ShloMosaic.ValueIdx

private theorem batch2 {N D n : Nat} (d : GatherDims ⟨2, ![N, D]⟩ ⟨2, ![n, 1]⟩ ⟨2, ![n, D]⟩)
    (hoff : d.offsetDims = [1]) (p : Fin n) (q : Fin D) (X : Fin 2) (hX : X ∈ d.batchDims) :
    (ix2 p q X).val = p.val := by
  have h : X ∉ d.offsetDims := by
    simpa [GatherDims.batchDims, Shape.kept, List.mem_filter, List.mem_finRange] using hX
  rw [hoff] at h
  match X with
  | ⟨0, _⟩ => rfl
  | ⟨1, _⟩ => exact absurd (List.mem_singleton.mpr rfl) h

private theorem off2 {N D n : Nat} (d : GatherDims ⟨2, ![N, D]⟩ ⟨2, ![n, 1]⟩ ⟨2, ![n, D]⟩)
    (hoff : d.offsetDims = [1]) (p : Fin n) (q : Fin D) (X : Fin 2) (hX : X ∈ d.offsetDims) :
    (ix2 p q X).val = q.val := by
  rw [hoff] at hX
  obtain rfl : X = 1 := List.mem_singleton.mp hX
  rfl

private theorem siIdx2 {N D n : Nat} (d : GatherDims ⟨2, ![N, D]⟩ ⟨2, ![n, 1]⟩ ⟨2, ![n, D]⟩)
    (hoff : d.offsetDims = [1]) (hivd : d.indexVectorDim = 1) (p : Fin n) (q : Fin D)
    (c : Fin d.startIndexMap.length) : d.siIdx (ix2 p q) c = ix2 p 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact batch2 d hoff p q _ (List.getElem_mem _)
  | ⟨1, _⟩ =>
    show (_ : Fin 1) = _
    exact Subsingleton.elim _ _

theorem gather_rows2 {α : Type} {N D n w : Nat} (hN : 0 < N)
    (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) :
    Host.gather d x idx (ix2 p q) = x (ix2 ⟨min (idx (ix2 p 0)).toInt.toNat (N - 1), by omega⟩ q) := by
  unfold Host.gather
  congr 1
  funext a
  have hb : ∀ a : Fin 2, a ∉ d.operandBatchingDims := by intro a; rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0
      = min (idx (ix2 p 0)).toInt.toNat (N - 1)
    rw [d.batchCoord_eq_zero _ _ (hb 0), d.offCoord_eq_zero _ _ hk]
    simp only [Nat.add_zero]
    unfold GatherDims.start
    rw [dif_pos hm, siIdx2 d hoff hivd p q]
    show min (idx (ix2 p 0)).toInt.toNat (N - d.sliceSizes 0) = _
    rw [hsl]
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1), Nat.add_zero]
    unfold GatherDims.start GatherDims.offCoord
    rw [dif_neg hm, dif_pos hk, Nat.zero_add]
    exact off2 d hoff p q _ (List.getElem_mem _)

end Cert.Lib.GatherRows
-- ==== Proof.LibScatterRows.lean ====
/- An accumulating row scatter and a flat gather read at an index. -/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Defs

namespace Cert.Lib.ScatterRows

open Idealize.ShloMosaic Idealize.ShloMosaic.ValueIdx

theorem resultIdx?_eq_some_iff {s si u : Shape} {w : Nat} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      show (d.start j idx a + (d.window j a : ℤ)).toNat = (i a).val
      have h1 := hf a
      omega
  · rename_i h
    constructor
    · intro h'
      cases h'
    · intro hf
      exfalso
      apply h
      intro a
      have h1 := hf a
      have h2 := (i a).isLt
      omega

theorem mem_sKept {s si u : Shape} (d : ScatterDims s si u) (a : Fin s.rank) :
    a ∈ d.sKept ↔ a ∉ d.insertedWindowDims := by
  simp [ScatterDims.sKept, Shape.kept, List.mem_filter, List.mem_finRange]

private theorem scat2 {N D n : Nat} (d : ScatterDims ⟨2, ![N, D]⟩ ⟨2, ![n, 1]⟩ ⟨2, ![n, D]⟩)
    (hupd : d.updateWindowDims = [1]) (e : Fin n) (c : Fin D) (X : Fin 2) (hX : X ∈ d.uScatter) :
    (ix2 e c X).val = e.val := by
  have h : X ∉ d.updateWindowDims := by
    simpa [ScatterDims.uScatter, Shape.kept, List.mem_filter, List.mem_finRange] using hX
  rw [hupd] at h
  match X with
  | ⟨0, _⟩ => rfl
  | ⟨1, _⟩ => exact absurd (List.mem_singleton.mpr rfl) h

private theorem win2 {N D n : Nat} (d : ScatterDims ⟨2, ![N, D]⟩ ⟨2, ![n, 1]⟩ ⟨2, ![n, D]⟩)
    (hupd : d.updateWindowDims = [1]) (e : Fin n) (c : Fin D) (X : Fin 2) (hX : X ∈ d.updateWindowDims) :
    (ix2 e c X).val = c.val := by
  rw [hupd] at hX
  obtain rfl : X = 1 := List.mem_singleton.mp hX
  rfl

private theorem siIdx2 {N D n : Nat} (d : ScatterDims ⟨2, ![N, D]⟩ ⟨2, ![n, 1]⟩ ⟨2, ![n, D]⟩)
    (hupd : d.updateWindowDims = [1]) (hivd : d.indexVectorDim = 1) (e : Fin n) (c : Fin D)
    (k : Fin d.scatterDimsToOperandDims.length) : d.siIdx (ix2 e c) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact scat2 d hupd e c _ (List.getElem_mem _)
  | ⟨1, _⟩ =>
    show (_ : Fin 1) = _
    exact Subsingleton.elim _ _

theorem lands_rows2 {N D n w : Nat} (d : ScatterDims ⟨2, ![N, D]⟩ ⟨2, ![n, 1]⟩ ⟨2, ![n, D]⟩)
    (hupd : d.updateWindowDims = [1]) (hins : d.insertedWindowDims = [0]) (hsd : d.scatterDimsToOperandDims = [0])
    (hivd : d.indexVectorDim = 1) (idx : IVec ⟨2, ![n, 1]⟩ w) (e : Fin n) (c : Fin D) (p : Fin N) (q : Fin D) :
    d.resultIdx? (ix2 e c) idx = some (ix2 p q) ↔ (idx (ix2 e 0)).toInt = (p.val : ℤ) ∧ c = q := by
  have hs0 : d.start (ix2 e c) idx 0 = (idx (ix2 e 0)).toInt := by
    unfold ScatterDims.start
    rw [dif_pos (by rw [hsd]; exact List.mem_singleton.mpr rfl), siIdx2 d hupd hivd e c]
  have hs1 : d.start (ix2 e c) idx 1 = 0 := by
    unfold ScatterDims.start
    rw [dif_neg (by rw [hsd]; simp)]
  have hw0 : d.window (ix2 e c) 0 = 0 := by
    unfold ScatterDims.window
    rw [dif_neg (by rw [mem_sKept, hins]; simp)]
  have hw1 : d.window (ix2 e c) 1 = c.val := by
    unfold ScatterDims.window
    rw [dif_pos (by rw [mem_sKept, hins]; simp)]
    exact win2 d hupd e c _ (List.getElem_mem _)
  rw [resultIdx?_eq_some_iff]
  constructor
  · intro h
    have h0 := h 0
    have h1 := h 1
    rw [hs0, hw0] at h0
    rw [hs1, hw1] at h1
    have h0' : (idx (ix2 e 0)).toInt + ((0 : ℕ) : ℤ) = (p.val : ℤ) := h0
    have h1' : (0 : ℤ) + (c.val : ℤ) = (q.val : ℤ) := h1
    exact ⟨by omega, Fin.ext (by omega)⟩
  · rintro ⟨h0, rfl⟩ a
    match a with
    | ⟨0, _⟩ =>
      show d.start (ix2 e c) idx 0 + (d.window (ix2 e c) 0 : ℤ) = (p.val : ℤ)
      rw [hs0, hw0]; omega
    | ⟨1, _⟩ =>
      show d.start (ix2 e c) idx 1 + (d.window (ix2 e c) 1 : ℤ) = (c.val : ℤ)
      rw [hs1, hw1]; omega

theorem scatterAdd_rows2 {φ : FTy} {N D n w : Nat} (d : ScatterDims ⟨2, ![N, D]⟩ ⟨2, ![n, 1]⟩ ⟨2, ![n, D]⟩)
    (hupd : d.updateWindowDims = [1]) (hins : d.insertedWindowDims = [0]) (hsd : d.scatterDimsToOperandDims = [0])
    (hivd : d.indexVectorDim = 1)
    (x : (⟨2, ![N, D]⟩ : Shape).Idx → EReal) (idx : IVec ⟨2, ![n, 1]⟩ w) (upd : (⟨2, ![n, D]⟩ : Shape).Idx → EReal)
    (p : Fin N) (q : Fin D) :
    Host.scatterAdd (F := Ideal) (φ := φ) d x idx upd (ix2 p q)
      = x (ix2 p q) + ∑ e ∈ Finset.univ.filter (fun e : Fin n => (idx (ix2 e 0)).toInt = (p.val : ℤ)), upd (ix2 e q) := by
  show x (ix2 p q) + ∑ j ∈ Finset.univ.filter (fun j => d.resultIdx? j idx = some (ix2 p q)), upd j = _
  congr 1
  have L := fun (a : Fin n) (b : Fin D) => lands_rows2 d hupd hins hsd hivd idx a b p q
  refine Finset.sum_nbij' (fun j => (j 0 : Fin n)) (fun e => ix2 e q) ?_ ?_ ?_ ?_ ?_
  · intro j hj
    obtain ⟨a, b, rfl⟩ : ∃ (a : Fin n) (b : Fin D), j = ix2 a b := ⟨_, _, eq_ix2 j⟩
    exact Finset.mem_filter.mpr ⟨Finset.mem_univ _, ((L a b).mp (Finset.mem_filter.mp hj).2).1⟩
  · intro e he
    exact Finset.mem_filter.mpr ⟨Finset.mem_univ _, (L e q).mpr ⟨(Finset.mem_filter.mp he).2, rfl⟩⟩
  · intro j hj
    obtain ⟨a, b, rfl⟩ : ∃ (a : Fin n) (b : Fin D), j = ix2 a b := ⟨_, _, eq_ix2 j⟩
    obtain rfl := ((L a b).mp (Finset.mem_filter.mp hj).2).2
    rfl
  · intro e _
    rfl
  · intro j hj
    obtain ⟨a, b, rfl⟩ : ∃ (a : Fin n) (b : Fin D), j = ix2 a b := ⟨_, _, eq_ix2 j⟩
    obtain rfl := ((L a b).mp (Finset.mem_filter.mp hj).2).2
    rfl

private theorem coord1 {n : Nat} (e : Fin n) (X : Fin 1) : (ix1 e X).val = e.val := by
  obtain rfl : X = 0 := Subsingleton.elim _ _
  rfl

private theorem siIdx1 {N n : Nat} (d : ScatterDims ⟨1, ![N]⟩ ⟨2, ![n, 1]⟩ ⟨1, ![n]⟩)
    (hivd : d.indexVectorDim = 1) (e : Fin n) (k : Fin d.scatterDimsToOperandDims.length) :
    d.siIdx (ix1 e) k = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact coord1 e _
  | ⟨1, _⟩ =>
    show (_ : Fin 1) = _
    exact Subsingleton.elim _ _

theorem lands_vec {N n w : Nat} (d : ScatterDims ⟨1, ![N]⟩ ⟨2, ![n, 1]⟩ ⟨1, ![n]⟩)
    (hins : d.insertedWindowDims = [0]) (hsd : d.scatterDimsToOperandDims = [0])
    (hivd : d.indexVectorDim = 1) (idx : IVec ⟨2, ![n, 1]⟩ w) (e : Fin n) (p : Fin N) :
    d.resultIdx? (ix1 e) idx = some (ix1 p) ↔ (idx (ix2 e 0)).toInt = (p.val : ℤ) := by
  have hs0 : d.start (ix1 e) idx 0 = (idx (ix2 e 0)).toInt := by
    unfold ScatterDims.start
    rw [dif_pos (by rw [hsd]; exact List.mem_singleton.mpr rfl), siIdx1 d hivd e]
  have hw0 : d.window (ix1 e) 0 = 0 := by
    unfold ScatterDims.window
    rw [dif_neg (by rw [mem_sKept, hins]; simp)]
  rw [resultIdx?_eq_some_iff]
  constructor
  · intro h
    have h0 := h 0
    rw [hs0, hw0] at h0
    have h0' : (idx (ix2 e 0)).toInt + ((0 : ℕ) : ℤ) = (p.val : ℤ) := h0
    omega
  · intro h0 a
    match a with
    | ⟨0, _⟩ =>
      show d.start (ix1 e) idx 0 + (d.window (ix1 e) 0 : ℤ) = (p.val : ℤ)
      rw [hs0, hw0]; omega

theorem scatterAdd_vec {φ : FTy} {N n w : Nat} (d : ScatterDims ⟨1, ![N]⟩ ⟨2, ![n, 1]⟩ ⟨1, ![n]⟩)
    (hupd : d.updateWindowDims = []) (hins : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (p : Fin N) :
    Host.scatterAdd (F := Ideal) (φ := φ) d x idx upd (ix1 p)
      = x (ix1 p) + ∑ e ∈ Finset.univ.filter (fun e : Fin n => (idx (ix2 e 0)).toInt = (p.val : ℤ)), upd (ix1 e) := by
  show x (ix1 p) + ∑ j ∈ Finset.univ.filter (fun j => d.resultIdx? j idx = some (ix1 p)), upd j = _
  congr 1
  have L := fun (a : Fin n) => lands_vec d hins hsd hivd idx a p
  refine Finset.sum_nbij' (fun j => (j 0 : Fin n)) (fun e => ix1 e) ?_ ?_ ?_ ?_ ?_
  · intro j hj
    obtain ⟨a, rfl⟩ : ∃ (a : Fin n), j = ix1 a := ⟨_, eq_ix1 j⟩
    exact Finset.mem_filter.mpr ⟨Finset.mem_univ _, (L a).mp (Finset.mem_filter.mp hj).2⟩
  · intro e he
    exact Finset.mem_filter.mpr ⟨Finset.mem_univ _, (L e).mpr (Finset.mem_filter.mp he).2⟩
  · intro j _
    exact (eq_ix1 j).symm
  · intro e _
    rfl
  · intro j _
    exact congrArg upd (eq_ix1 j)

private theorem gsiIdx1 {N n : Nat} (d : GatherDims ⟨1, ![N]⟩ ⟨2, ![n, 1]⟩ ⟨1, ![n]⟩)
    (hivd : d.indexVectorDim = 1) (p : Fin n) (c : Fin d.startIndexMap.length) :
    d.siIdx (ix1 p) c = ix2 p 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact coord1 p _
  | ⟨1, _⟩ =>
    show (_ : Fin 1) = _
    exact Subsingleton.elim _ _

theorem gather_vec {α : Type} {N n w : Nat} (hN : 0 < N)
    (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) :
    Host.gather d x idx (ix1 p) = x (ix1 ⟨min (idx (ix2 p 0)).toInt.toNat (N - 1), by omega⟩) := by
  unfold Host.gather
  congr 1
  funext a
  match a with
  | ⟨0, _⟩ =>
    apply Fin.ext
    have hb : (0 : Fin 1) ∉ d.operandBatchingDims := by rw [hob]; exact List.not_mem_nil
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 p) idx 0 + d.batchCoord (ix1 p) 0 + d.offCoord (ix1 p) 0
      = min (idx (ix2 p 0)).toInt.toNat (N - 1)
    rw [d.batchCoord_eq_zero _ _ hb, d.offCoord_eq_zero _ _ hk]
    simp only [Nat.add_zero]
    unfold GatherDims.start
    rw [dif_pos hm, gsiIdx1 d hivd p]
    show min (idx (ix2 p 0)).toInt.toNat (N - d.sliceSizes 0) = _
    rw [hsl]

end Cert.Lib.ScatterRows
-- ==== Proof.LibArgsortPerm.lean ====
/- An argsort is a permutation of the positions. -/
import Idealize.ShloMosaic.PureOps.ShapeOps
import Idealize.ShloMosaic.Lib.SortFacts
import Idealize.ShloMosaic.Lib.ValueIdx
import Mathlib.Logic.Equiv.Defs

namespace Cert.Lib.ArgsortPerm

open Idealize.ShloMosaic Idealize.ShloMosaic.ValueIdx

noncomputable def sortPos {n : Nat} {α β : Type} (cmp : α × β → α × β → BitVec 1)
    (x : (⟨1, ![n]⟩ : Shape).Idx → α) (y : (⟨1, ![n]⟩ : Shape).Idx → β) : Fin n → Fin n :=
  sortedFrom fun k k' => cmp (x (Shape.Idx.ofFin k), y (Shape.Idx.ofFin k)) (x (Shape.Idx.ofFin k'), y (Shape.Idx.ofFin k')) == 1#1

theorem sort2_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).1 j = x (Shape.Idx.ofFin (sortPos cmp x y (j 0)))
    ∧ (Host.sort2 ⟨1, ![n]⟩ 0 cmp x y).2 j = y (Shape.Idx.ofFin (sortPos cmp x y (j 0))) := by
  unfold Host.sort2 sortPos
  simp

theorem sortPos_bijective {n : Nat} {α β : Type} (cmp : α × β → α × β → BitVec 1)
    (x : (⟨1, ![n]⟩ : Shape).Idx → α) (y : (⟨1, ![n]⟩ : Shape).Idx → β) : Function.Bijective (sortPos cmp x y) :=
  ⟨sortedFrom_injective _, sortedFrom_surjective _⟩

noncomputable def sortPerm {n : Nat} {α β : Type} (cmp : α × β → α × β → BitVec 1)
    (x : (⟨1, ![n]⟩ : Shape).Idx → α) (y : (⟨1, ![n]⟩ : Shape).Idx → β) : Equiv.Perm (Fin n) :=
  Equiv.ofBijective (sortPos cmp x y) (sortPos_bijective cmp x y)

theorem argsort_apply {n : Nat} (cmp : BitVec 32 × BitVec 32 → BitVec 32 × BitVec 32 → BitVec 1)
    (keys : IVec ⟨1, ![n]⟩ 32) (e : Fin n) :
    (Host.sort2 ⟨1, ![n]⟩ 0 cmp keys (iotaInDim ⟨1, ![n]⟩ 32 0)).2 (ix1 e)
      = BitVec.ofNat 32 (sortPerm cmp keys (iotaInDim ⟨1, ![n]⟩ 32 0) e).val := by
  rw [(sort2_rank1 cmp keys (iotaInDim ⟨1, ![n]⟩ 32 0) (ix1 e)).2]
  rfl

theorem toInt_ofNat_of_lt {k : Nat} (hk : k < 2 ^ 31) : (BitVec.ofNat 32 k).toInt = (k : Int) := by
  rw [BitVec.toInt_eq_toNat_of_lt (by rw [BitVec.toNat_ofNat]; omega), BitVec.toNat_ofNat]
  congr 1
  omega

theorem cmpi_slt_ofNat_zero {k : Nat} (hk : k < 2 ^ 31) : IntOp.cmpi .slt (BitVec.ofNat 32 k) 0#32 = 0#1 := by
  unfold IntOp.cmpi
  simp only [BitVec.slt_eq_decide, toInt_ofNat_of_lt hk]
  rw [decide_eq_false (by simp)]
  rfl

theorem nrm_ofNat {n : Nat} (hn : n < 2 ^ 31) (k : Fin n) :
    let v := BitVec.ofNat 32 k.val
    (if (IntOp.cmpi .slt v 0#32) = 1#1 then v + BitVec.ofNat 32 n else v) = v ∧ v.toInt.toNat = k.val := by
  intro v
  have hk : k.val < 2 ^ 31 := lt_trans k.isLt hn
  refine ⟨?_, ?_⟩
  · rw [cmpi_slt_ofNat_zero hk, if_neg (by decide)]
  · show (BitVec.ofNat 32 k.val).toInt.toNat = k.val
    rw [toInt_ofNat_of_lt hk]
    rfl

theorem select_slt_ofNat {s : Shape} {n : Nat} (hn : n < 2 ^ 31) (p z m : IVec s 32) (i : s.Idx) (k : Fin n)
    (hp : p i = BitVec.ofNat 32 k.val) (hz : z i = 0#32) :
    select (cmpi .slt p z) (addi p m) p i = BitVec.ofNat 32 k.val := by
  show Scalar.select (IntOp.cmpi .slt (p i) (z i)) (IntOp.addi (p i) (m i)) (p i) = _
  rw [hp, hz, cmpi_slt_ofNat_zero (lt_trans k.isLt hn), select_zero]

theorem clamp_ofNat {n : Nat} (hn : n < 2 ^ 31) (k : Fin n) (w : BitVec 32) (hw : w = BitVec.ofNat 32 k.val) :
    min w.toInt.toNat (n - 1) = k.val := by
  rw [hw, (nrm_ofNat hn k).2]
  exact Nat.min_eq_left (by have := k.isLt; omega)

theorem take_perm {n : Nat} (hn : n < 2 ^ 31) (σ : Equiv.Perm (Fin n)) (idx : IVec ⟨2, ![n, 1]⟩ 32) (e : Fin n)
    (h : idx (ix2 e 0) = BitVec.ofNat 32 (σ e).val) :
    min (idx (ix2 e 0)).toInt.toNat (n - 1) = (σ e).val :=
  clamp_ofNat hn (σ e) _ h

theorem take_perm_fin {n : Nat} (hn : n < 2 ^ 31) (σ : Equiv.Perm (Fin n)) (idx : IVec ⟨2, ![n, 1]⟩ 32) (e : Fin n)
    (h : idx (ix2 e 0) = BitVec.ofNat 32 (σ e).val) (hlt : min (idx (ix2 e 0)).toInt.toNat (n - 1) < n) :
    (⟨min (idx (ix2 e 0)).toInt.toNat (n - 1), hlt⟩ : Fin n) = σ e :=
  Fin.ext (take_perm hn σ idx e h)

theorem broadcast_column_apply {α : Type} {n : Nat} (dims : Fin 1 → Fin 2) (hd : dims 0 = 0)
    (h : (⟨1, ![n]⟩ : Shape).BroadcastsInDim ⟨2, ![n, 1]⟩ dims) (x : (⟨1, ![n]⟩ : Shape).Idx → α) (e : Fin n) (c : Fin 1) :
    broadcastInDim ⟨2, ![n, 1]⟩ dims h x (ix2 e c) = x (ix1 e) := by
  unfold broadcastInDim
  congr 1
  funext a
  obtain rfl : a = 0 := Subsingleton.elim _ _
  apply Fin.ext
  split
  · rename_i h1
    have h1' : n = 1 := h1
    have := e.isLt
    show 0 = e.val
    omega
  · show (ix2 e c (dims 0)).val = e.val
    rw [hd]

theorem argsort_column {n : Nat} (hn : n < 2 ^ 31) (cmp : BitVec 32 × BitVec 32 → BitVec 32 × BitVec 32 → BitVec 1)
    (keys z m : IVec ⟨1, ![n]⟩ 32) (hz : ∀ i, z i = 0#32) (dims : Fin 1 → Fin 2) (hd : dims 0 = 0)
    (h : (⟨1, ![n]⟩ : Shape).BroadcastsInDim ⟨2, ![n, 1]⟩ dims) (e : Fin n) :
    broadcastInDim ⟨2, ![n, 1]⟩ dims h
        (select (cmpi .slt (Host.sort2 ⟨1, ![n]⟩ 0 cmp keys (iotaInDim ⟨1, ![n]⟩ 32 0)).2 z)
          (addi (Host.sort2 ⟨1, ![n]⟩ 0 cmp keys (iotaInDim ⟨1, ![n]⟩ 32 0)).2 m)
          (Host.sort2 ⟨1, ![n]⟩ 0 cmp keys (iotaInDim ⟨1, ![n]⟩ 32 0)).2) (ix2 e 0)
      = BitVec.ofNat 32 (sortPerm cmp keys (iotaInDim ⟨1, ![n]⟩ 32 0) e).val := by
  rw [broadcast_column_apply dims hd h _ e 0]
  exact select_slt_ofNat hn _ z m (ix1 e) _ (argsort_apply cmp keys e) (hz _)

end Cert.Lib.ArgsortPerm
-- ==== Proof.K.HostA.lean ====
/- The host stretches before the first call: the messages' sources and targets, the degrees, the normalising scales, the messages sorted by target. -/
import proofs.«414465_j87909390615182_2_alg».proof.Proof.Gen.KernelIdeal.Launch
import proofs.«414465_j87909390615182_2_alg».proof.Proof.Gen.KernelIdeal.Regions
import proofs.«414465_j87909390615182_2_alg».proof.Proof.M.Spec
import proofs.«414465_j87909390615182_2_alg».proof.Proof.LibGatherRows
import proofs.«414465_j87909390615182_2_alg».proof.Proof.LibScatterRows
import proofs.«414465_j87909390615182_2_alg».proof.Proof.LibArgsortPerm
import proofs.«414465_j87909390615182_2_alg».proof.Proof.LibGcnAlgebra
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.TcCoe Idealize.ShloMosaic.ValueIdx
open Cert.KernelIdeal Cert.KernelIdeal.Gen
open Cert.Lib

def srcK (ei : IVec S2x3200000 32) : IVec S3300000 32 :=
  concatenate S3300000 0
    [⟨S3200000, shapeCast S3200000 (extractStridedSlice S1x3200000 ![0, 0] ei slices_S2x3200000_S1x3200000_0_0)
        shapeCasts_S1x3200000_S3200000⟩,
      ⟨S100000, iotaInDim S100000 32 0⟩]
    concatenates_S3200000_S100000_S3300000_d0

def dstK (ei : IVec S2x3200000 32) : IVec S3300000 32 :=
  concatenate S3300000 0
    [⟨S3200000, shapeCast S3200000 (extractStridedSlice S1x3200000 ![1, 0] ei slices_S2x3200000_S1x3200000_1_0)
        shapeCasts_S1x3200000_S3200000⟩,
      ⟨S100000, iotaInDim S100000 32 0⟩]
    concatenates_S3200000_S100000_S3300000_d0

def degK (ei : IVec S2x3200000 32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 (dstK ei))
    (broadcastInDim S3300000 ![] bcast_S_S3300000 (constant (F := Ideal) S_ .f32 0x3F800000#32))

variable (Wv : Valuation τ sig (Elt Ideal))

abbrev eiOf : IVec S2x3200000 32 := Wv (Proc.devRef .tc main_arg1)

abbrev W1v : Valuation τ sig (Elt Ideal) := StableHlo.after hostOps0 Wv
abbrev W2v : Valuation τ sig (Elt Ideal) := StableHlo.after hostOps0_1 (W1v Wv)
abbrev W3v : Valuation τ sig (Elt Ideal) := StableHlo.after hostOps0_2 (W2v Wv)
abbrev W4v : Valuation τ sig (Elt Ideal) := StableHlo.after hostOps0_3 (W3v Wv)

theorem v5_eq : (W1v Wv (Proc.devRef .tc main_v5) : IVec S3300000 32) = srcK (eiOf Wv) := by
  show StableHlo.after hostOps0 Wv (Proc.devRef .tc main_v5) = _
  after_results; rfl

theorem v6_eq : (W1v Wv (Proc.devRef .tc main_v6) : IVec S3300000 32) = dstK (eiOf Wv) := by
  show StableHlo.after hostOps0 Wv (Proc.devRef .tc main_v6) = _
  after_results; rfl

theorem v12_eq : (W1v Wv (Proc.devRef .tc main_v12) : IVec S100000 1)
    = cmpf .ogt (degK (eiOf Wv)) (broadcastInDim S100000 ![] bcast_S_S100000 (constant (F := Ideal) S_ .f32 0x00000000#32)) := by
  show StableHlo.after hostOps0 Wv (Proc.devRef .tc main_v12) = _
  after_results; rfl

theorem v15_eq : (W1v Wv (Proc.devRef .tc main_v15) : FVec Ideal S100000 .f32)
    = Host.rsqrt (maximumf (degK (eiOf Wv)) (broadcastInDim S100000 ![] bcast_S_S100000 (constant (F := Ideal) S_ .f32 0x3F800000#32))) := by
  show StableHlo.after hostOps0 Wv (Proc.devRef .tc main_v15) = _
  after_results; rfl

theorem cst3_eq : (W1v Wv (Proc.devRef .tc main_cst_3) : FVec Ideal S_ .f32) = constant (F := Ideal) S_ .f32 0x00000000#32 := by
  show StableHlo.after hostOps0 Wv (Proc.devRef .tc main_cst_3) = _
  after_results

variable (W : Valuation τ sig (Elt Ideal))

theorem v16_of : (StableHlo.after hostOps0_1 W (Proc.devRef .tc main_v16) : FVec Ideal S100000 .f32)
    = select (W (Proc.devRef .tc main_v12) : IVec S100000 1) (W (Proc.devRef .tc main_v15) : FVec Ideal S100000 .f32)
        (broadcastInDim S100000 ![] bcast_S_S100000 (W (Proc.devRef .tc main_cst_3) : FVec Ideal S_ .f32)) := by
  after_results
  simp only [StableHlo.TRef.ofBuf, StableHlo.TRef.toBuf, cast_eq]
  rfl

theorem v17_of : (StableHlo.after hostOps0_2 W (Proc.devRef .tc main_v17) : IVec S3300000 32)
    = (Host.sort2 S3300000 0 comparator_i32_i32_d0 (W (Proc.devRef .tc main_v6) : IVec S3300000 32) (iotaInDim S3300000 32 0)).2 := by
  after_results
  simp only [StableHlo.TRef.ofBuf, StableHlo.TRef.toBuf, cast_eq]

def permCol (p : IVec S3300000 32) : IVec S3300000x1 32 :=
  broadcastInDim S3300000x1 ![0] bcast_S3300000_S3300000x1_0
    (select (cmpi .slt p (broadcastInDim S3300000 ![] bcast_S_S3300000 (constantI S_ 32 0#32)))
      (addi p (broadcastInDim S3300000 ![] bcast_S_S3300000 (constantI S_ 32 3300000#32))) p)

theorem v24_of : (StableHlo.after hostOps0_3 W (Proc.devRef .tc main_v24) : IVec S3300000 32)
    = Host.gather gather_S3300000_S3300000x1_S3300000_n_0_n_n_0_1_1 (W (Proc.devRef .tc main_v5) : IVec S3300000 32)
        (permCol (W (Proc.devRef .tc main_v17))) := by
  after_results; rfl

set_option maxHeartbeats 1600000 in
theorem v31_of : (StableHlo.after hostOps0_3 W (Proc.devRef .tc main_v31) : IVec S3300000 32)
    = Host.gather gather_S3300000_S3300000x1_S3300000_n_0_n_n_0_1_1 (W (Proc.devRef .tc main_v6) : IVec S3300000 32)
        (permCol (W (Proc.devRef .tc main_v17))) := by
  after_results; rfl

theorem v32_of : (StableHlo.after hostOps0_3 W (Proc.devRef .tc main_v32) : FVec Ideal S100000x1 .f32)
    = shapeCast S100000x1 (W (Proc.devRef .tc main_v16) : FVec Ideal S100000 .f32) shapeCasts_S100000_S100000x1 := by
  after_results; rfl

theorem bcast_zero_apply (i : S100000.Idx) :
    broadcastInDim S100000 ![] bcast_S_S100000 (constant (F := Ideal) S_ .f32 0x00000000#32) i = (0 : EReal) :=
  Ideal.ofBits_zero_f32

theorem bcast_one_apply (i : S100000.Idx) :
    broadcastInDim S100000 ![] bcast_S_S100000 (constant (F := Ideal) S_ .f32 0x3F800000#32) i = (1 : EReal) :=
  Ideal.ofBits_one_f32

theorem dis2_read (n : Fin Cert.Spec.Nn) :
    (W4v Wv (Proc.devRef .tc main_v32) : S100000x1.Idx → EReal) (ix2 n 0)
      = Cert.Spec.disOf (fun n => degK (eiOf Wv) (ix1 n)) n := by
  have h32 : (W4v Wv (Proc.devRef .tc main_v32) : FVec Ideal S100000x1 .f32)
      = shapeCast S100000x1 (W3v Wv (Proc.devRef .tc main_v16) : FVec Ideal S100000 .f32) shapeCasts_S100000_S100000x1 :=
    v32_of (W3v Wv)
  have h16a : (W3v Wv (Proc.devRef .tc main_v16) : FVec Ideal S100000 .f32) = W2v Wv (Proc.devRef .tc main_v16) :=
    StableHlo.after_of_writes_sub hostOps0_2 _ hostOps0_2_writes (by decide)
  have h16 : (W2v Wv (Proc.devRef .tc main_v16) : FVec Ideal S100000 .f32) = _ := v16_of (W1v Wv)
  rw [h32, shapeCast_apply _ _ (ix2 n 0) (ix1 n)
    (by rw [Shape.rowMajor_val_one, Shape.rowMajor_val_two]; show n.val = n.val * 1 + 0; omega), h16a, h16,
    v12_eq, v15_eq, cst3_eq]
  unfold Cert.Spec.disOf
  exact GcnAlgebra.dis_vec _ _ _ _ (ix1 n) (bcast_zero_apply _) (bcast_one_apply _) (bcast_zero_apply _)

def sigmaK (ei : IVec S2x3200000 32) : Equiv.Perm (Fin Cert.Spec.Mm) :=
  ArgsortPerm.sortPerm comparator_i32_i32_d0 (dstK ei) (iotaInDim S3300000 32 0)

theorem v17_eq : (W3v Wv (Proc.devRef .tc main_v17) : IVec S3300000 32)
    = (Host.sort2 S3300000 0 comparator_i32_i32_d0 (dstK (eiOf Wv)) (iotaInDim S3300000 32 0)).2 := by
  have h6 : (W2v Wv (Proc.devRef .tc main_v6) : IVec S3300000 32) = W1v Wv (Proc.devRef .tc main_v6) :=
    StableHlo.after_of_writes_sub hostOps0_1 _ hostOps0_1_writes (by decide)
  have h := v17_of (W2v Wv)
  rw [h6, v6_eq] at h
  exact h

theorem permCol_read (e : Fin Cert.Spec.Mm) :
    permCol (W3v Wv (Proc.devRef .tc main_v17)) (ix2 e 0) = BitVec.ofNat 32 (sigmaK (eiOf Wv) e).val := by
  rw [v17_eq]
  exact ArgsortPerm.argsort_column (by decide) comparator_i32_i32_d0 (dstK (eiOf Wv)) _ _ (fun _ => rfl) ![0] rfl
    bcast_S3300000_S3300000x1_0 e

theorem v5_kept : (W3v Wv (Proc.devRef .tc main_v5) : IVec S3300000 32) = srcK (eiOf Wv) :=
  (StableHlo.after_of_writes_sub hostOps0_2 _ hostOps0_2_writes (by decide)).trans <|
    (StableHlo.after_of_writes_sub hostOps0_1 _ hostOps0_1_writes (by decide)).trans (v5_eq Wv)

theorem v6_kept : (W3v Wv (Proc.devRef .tc main_v6) : IVec S3300000 32) = dstK (eiOf Wv) :=
  (StableHlo.after_of_writes_sub hostOps0_2 _ hostOps0_2_writes (by decide)).trans <|
    (StableHlo.after_of_writes_sub hostOps0_1 _ hostOps0_1_writes (by decide)).trans (v6_eq Wv)

theorem v24_read (e : Fin Cert.Spec.Mm) :
    (W4v Wv (Proc.devRef .tc main_v24) : S3300000.Idx → BitVec 32) (ix1 e) = srcK (eiOf Wv) (ix1 (sigmaK (eiOf Wv) e)) := by
  have h : (W4v Wv (Proc.devRef .tc main_v24) : IVec S3300000 32) = _ := v24_of (W3v Wv)
  rw [h, ScatterRows.gather_vec (by decide) _ rfl rfl rfl rfl rfl, v5_kept]
  exact congrArg (fun k => srcK (eiOf Wv) (ix1 k))
    (ArgsortPerm.take_perm_fin (by decide) (sigmaK (eiOf Wv)) _ e (permCol_read Wv e) _)

theorem v31_read (e : Fin Cert.Spec.Mm) :
    (W4v Wv (Proc.devRef .tc main_v31) : S3300000.Idx → BitVec 32) (ix1 e) = dstK (eiOf Wv) (ix1 (sigmaK (eiOf Wv) e)) := by
  have h : (W4v Wv (Proc.devRef .tc main_v31) : IVec S3300000 32) = _ := v31_of (W3v Wv)
  rw [h, ScatterRows.gather_vec (by decide) _ rfl rfl rfl rfl rfl, v6_kept]
  exact congrArg (fun k => dstK (eiOf Wv) (ix1 k))
    (ArgsortPerm.take_perm_fin (by decide) (sigmaK (eiOf Wv)) _ e (permCol_read Wv e) _)

theorem sorted_read : ∃ σ : Equiv.Perm (Fin Cert.Spec.Mm),
    (∀ e, (W4v Wv (Proc.devRef .tc main_v24) : S3300000.Idx → BitVec 32) (ix1 e) = srcK (eiOf Wv) (ix1 (σ e)))
    ∧ (∀ e, (W4v Wv (Proc.devRef .tc main_v31) : S3300000.Idx → BitVec 32) (ix1 e) = dstK (eiOf Wv) (ix1 (σ e))) :=
  ⟨sigmaK (eiOf Wv), v24_read Wv, v31_read Wv⟩

end Cert.KernelIdeal.Hand
-- ==== Proof.LibIndexReads.lean ====
import Idealize.ShloMosaic.Lib.Pipeline.Value
import Idealize.ShloMosaic.Lib.ValueIdx

namespace Cert.Lib.IndexReads

open Idealize.ShloMosaic Idealize.ShloMosaic.ValueIdx

/-- Choosing `x + y` where the word `x` is negative, word by word. -/
theorem wrap_word (x y : BitVec 32) :
    Scalar.select (IntOp.cmpi .slt x 0#32) (IntOp.addi x y) x = if x.toInt < 0 then x + y else x := by
  show (if BitVec.ofBool (x.slt 0#32) = 1#1 then x + y else x) = _
  rw [BitVec.slt_eq_decide, BitVec.toInt_zero]
  by_cases h : x.toInt < 0
  · rw [if_pos h, decide_eq_true h, if_pos (show BitVec.ofBool true = 1#1 from rfl)]
  · rw [if_neg h, decide_eq_false h, if_neg (show ¬BitVec.ofBool false = 1#1 by decide)]

/-- A constant spread over any shape reads that constant everywhere. -/
theorem splat_apply {s : Shape} (h : (⟨0, ![]⟩ : Shape).BroadcastsInDim s ![]) (b : BitVec 32) (i : s.Idx) :
    broadcastInDim s ![] h (constant (F := Ideal) ⟨0, ![]⟩ .f32 b) i = Ideal.ofBits .f32 b := rfl

variable {α : Type}

/-- A column repeated along `D` columns: every entry of row `e` is the column's entry `e`. -/
theorem bcast_cols {n D : Nat} (h : (⟨2, ![n, 1]⟩ : Shape).BroadcastsInDim ⟨2, ![n, D]⟩ ![0, 1])
    (x : (⟨2, ![n, 1]⟩ : Shape).Idx → α) (e : Fin n) (q : Fin D) :
    broadcastInDim ⟨2, ![n, D]⟩ ![0, 1] h x (ix2 e q) = x (ix2 e 0) := by
  refine broadcastInDim_apply ![0, 1] h x (ix2 e q) (ix2 e 0) fun a => ?_
  match a with
  | ⟨0, _⟩ =>
    show e.val = if n = 1 then 0 else e.val
    split
    · have := e.isLt; omega
    · rfl
  | ⟨1, _⟩ => rfl

/-- A flat array laid out as one row keeps its entries. -/
theorem bcast_row {D : Nat} (h : (⟨1, ![D]⟩ : Shape).BroadcastsInDim ⟨2, ![1, D]⟩ ![1])
    (x : (⟨1, ![D]⟩ : Shape).Idx → α) (z : Fin 1) (q : Fin D) :
    broadcastInDim ⟨2, ![1, D]⟩ ![1] h x (ix2 z q) = x (ix1 q) := by
  refine broadcastInDim_apply ![1] h x (ix2 z q) (ix1 q) fun a => ?_
  match a with
  | ⟨0, _⟩ =>
    show q.val = if D = 1 then 0 else q.val
    split
    · have := q.isLt; omega
    · rfl

end Cert.Lib.IndexReads
-- ==== Proof.K.HostB.lean ====
import proofs.«414465_j87909390615182_2_alg».proof.Proof.Gen.KernelIdeal.Launch
import proofs.«414465_j87909390615182_2_alg».proof.Proof.M.Spec
import proofs.«414465_j87909390615182_2_alg».proof.Proof.LibGatherRows
import proofs.«414465_j87909390615182_2_alg».proof.Proof.LibScatterRows
import proofs.«414465_j87909390615182_2_alg».proof.Proof.LibArgsortPerm
import proofs.«414465_j87909390615182_2_alg».proof.Proof.LibIndexReads
import Idealize.ShloMosaic.Lib.StableHlo.Run
import Idealize.ShloMosaic.Lib.ValueLayout
import Idealize.ShloMosaic.Lib.IdealHost
import Idealize.ShloMosaic.Lib.StackMember
import Idealize.ShloMosaic.Lib.KernelVsHost

noncomputable section

namespace Cert.KernelIdeal.Hand

open Idealize.ShloMosaic Idealize.ShloMosaic.ValueIdx
open Cert.KernelIdeal Cert.KernelIdeal.Gen Cert.Lib.IndexReads Cert.Lib.ArgsortPerm Cert.Lib.ScatterRows Cert.Lib.GatherRows

/-- The sum, over the messages whose target word read signed is `n`, of the rows their source words name. -/
def kaggS {D : Nat} (srcS dstS : Fin Cert.Spec.Mm → BitVec 32) (u : Fin Cert.Spec.Nn → Fin D → EReal)
    (n : Fin Cert.Spec.Nn) (j : Fin D) : EReal :=
  0 + ∑ e ∈ Finset.univ.filter (fun e : Fin Cert.Spec.Mm => (dstS e).toInt = (n.val : ℤ)), u (Cert.Spec.row (srcS e)) j

theorem kaggS_perm {D : Nat} (src dst : Fin Cert.Spec.Mm → BitVec 32) (σ : Equiv.Perm (Fin Cert.Spec.Mm))
    (u : Fin Cert.Spec.Nn → Fin D → EReal) :
    kaggS (fun e => src (σ e)) (fun e => dst (σ e)) u = Cert.Spec.kagg src dst σ u := by
  funext n j
  rfl

section Agg

variable {D : Nat}
  (ws : ScatterDims.WF ⟨2, ![100000, D]⟩ S3300000x1 ⟨2, ![3300000, D]⟩ [1] [0] [0] 1)
  (wg : GatherDims.WF ⟨2, ![100000, D]⟩ S3300000x1 ⟨2, ![3300000, D]⟩ [1] [0] [] [0] [] 1 ![1, D])
  (hz : S_.BroadcastsInDim ⟨2, ![100000, D]⟩ ![])
  (raw : FVec Ideal ⟨2, ![100000, D]⟩ .bf16) (srcS dstS : IVec S3300000 32)

/-- The aggregation at any width `D`: rows gathered at the wrapped source words, widened, added at the target words from zero. -/
def aggTerm : FVec Ideal ⟨2, ![100000, D]⟩ .f32 :=
  Host.scatterAdd (F := Ideal) ⟨[1], [0], [0], 1, ws⟩
    (broadcastInDim _ ![] hz (constant (F := Ideal) S_ .f32 0x00000000#32))
    (broadcastInDim S3300000x1 ![0] bcast_S3300000_S3300000x1_0 dstS)
    (extf .f32 (Host.gather ⟨[1], [0], [], [], [0], 1, ![1, D], wg⟩ raw (broadcastInDim S3300000x1 ![0] bcast_S3300000_S3300000x1_0
      (select (cmpi .slt srcS (broadcastInDim S3300000 ![] bcast_S_S3300000 (constantI S_ 32 0#32)))
        (addi srcS (broadcastInDim S3300000 ![] bcast_S_S3300000 (constantI S_ 32 100000#32))) srcS))) bitsLt_bf16_f32)

/-- The scatter is the sum over the messages into the node; the gather reads the row the wrapped, clamped source word names. -/
theorem aggTerm_apply (n : Fin Cert.Spec.Nn) (j : Fin D) :
    aggTerm ws wg hz raw srcS dstS (ix2 n j)
      = kaggS (fun e => srcS (ix1 e)) (fun e => dstS (ix1 e)) (fun n k => raw (ix2 n k)) n j := by
  unfold aggTerm
  rw [scatterAdd_rows2 ⟨[1], [0], [0], 1, ws⟩ rfl rfl rfl rfl]
  refine congrArg₂ (· + ·) Ideal.ofBits_zero_f32 (Finset.sum_congr (Finset.filter_congr fun e _ => by rw [broadcast_column_apply ![0] rfl]) fun e _ => ?_)
  rw [extf_apply, gather_rows2 (by decide) ⟨[1], [0], [], [], [0], 1, ![1, D], wg⟩ rfl rfl rfl rfl rfl]
  exact congrArg (fun w : BitVec 32 => raw (ix2 ⟨min w.toInt.toNat (100000 - 1), by omega⟩ j)) ((broadcast_column_apply ![0] rfl _ _ e 0).trans (wrap_word (srcS (ix1 e)) _))

end Agg

/-- A flat array cast to a column keeps its entries. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_two, Shape.rowMajor_val_one]
    show i.val = i.val * 1 + u.val
    omega)

variable (Wv : Valuation τ sig (Elt Ideal))

set_option maxHeartbeats 2000000 in
theorem agg1_read (n : Fin Cert.Spec.Nn) (j : Fin 32) :
    (StableHlo.after hostOps1 Wv (Proc.devRef .tc main_v44) : S100000x32.Idx → EReal) (ix2 n j)
      = kaggS (fun e => (Wv (Proc.devRef .tc main_v24) : S3300000.Idx → BitVec 32) (ix1 e))
          (fun e => (Wv (Proc.devRef .tc main_v31) : S3300000.Idx → BitVec 32) (ix1 e))
          (fun n k => (Wv (Proc.devRef .tc main_v33) : S100000x32.Idx → EReal) (ix2 n k)) n j := by
  refine Eq.trans (congrFun ?_ _) (aggTerm_apply scatter_S100000x32_S3300000x1_S3300000x32_1_0_0_1_wf gather_S100000x32_S3300000x1_S3300000x32_1_0_n_n_0_1_132_wf bcast_S_S100000x32 _ _ _ n j)
  after_results
  rfl

theorem bias1_read (k : Fin 32) :
    (StableHlo.after hostOps1 Wv (Proc.devRef .tc main_v45) : S1x32.Idx → EReal) (ix2 0 k)
      = (Wv (Proc.devRef .tc main_arg4) : S32.Idx → EReal) (ix1 k) := by
  refine Eq.trans (congrFun ?_ _) (shapeCast_a_1a_apply _ shapeCasts_S32_S1x32 0 k)
  after_results
  rfl

set_option maxHeartbeats 2000000 in
theorem agg2_read (n : Fin Cert.Spec.Nn) (j : Fin 16) :
    (StableHlo.after hostOps2 Wv (Proc.devRef .tc main_v57) : S100000x16.Idx → EReal) (ix2 n j)
      = kaggS (fun e => (Wv (Proc.devRef .tc main_v24) : S3300000.Idx → BitVec 32) (ix1 e))
          (fun e => (Wv (Proc.devRef .tc main_v31) : S3300000.Idx → BitVec 32) (ix1 e))
          (fun n k => (Wv (Proc.devRef .tc main_v46) : S100000x16.Idx → EReal) (ix2 n k)) n j := by
  refine Eq.trans (congrFun ?_ _) (aggTerm_apply scatter_S100000x16_S3300000x1_S3300000x16_1_0_0_1_wf gather_S100000x16_S3300000x1_S3300000x16_1_0_n_n_0_1_116_wf bcast_S_S100000x16 _ _ _ n j)
  after_results
  rfl

theorem bias2_read (k : Fin 16) :
    (StableHlo.after hostOps2 Wv (Proc.devRef .tc main_v58) : S1x16.Idx → EReal) (ix2 0 k)
      = (Wv (Proc.devRef .tc main_arg6) : S16.Idx → EReal) (ix1 k) := by
  refine Eq.trans (congrFun ?_ _) (shapeCast_a_1a_apply _ shapeCasts_S16_S1x16 0 k)
  after_results
  rfl

set_option maxHeartbeats 2000000 in
theorem agg3_read (n : Fin Cert.Spec.Nn) (j : Fin 8) :
    (StableHlo.after hostOps3 Wv (Proc.devRef .tc main_v70) : S100000x8.Idx → EReal) (ix2 n j)
      = kaggS (fun e => (Wv (Proc.devRef .tc main_v24) : S3300000.Idx → BitVec 32) (ix1 e))
          (fun e => (Wv (Proc.devRef .tc main_v31) : S3300000.Idx → BitVec 32) (ix1 e))
          (fun n k => (Wv (Proc.devRef .tc main_v59) : S100000x8.Idx → EReal) (ix2 n k)) n j := by
  refine Eq.trans (congrFun ?_ _) (aggTerm_apply scatter_S100000x8_S3300000x1_S3300000x8_1_0_0_1_wf gather_S100000x8_S3300000x1_S3300000x8_1_0_n_n_0_1_18_wf bcast_S_S100000x8 _ _ _ n j)
  after_results
  rfl

set_option maxHeartbeats 2000000 in
theorem bias3_read (k : Fin 8) :
    (StableHlo.after hostOps3 Wv (Proc.devRef .tc main_v72) : S1x8.Idx → EReal) (ix2 0 k)
      = (Wv (Proc.devRef .tc main_arg8) : S8.Idx → EReal) (ix1 k) := by
  refine Eq.trans (congrFun ?_ _) (shapeCast_a_1a_apply _ shapeCasts_S8_S1x8 0 k)
  after_results
  rfl

set_option maxHeartbeats 2000000 in
theorem batch2_read (n : Fin Cert.Spec.Nn) :
    (StableHlo.after hostOps3 Wv (Proc.devRef .tc main_v71) : S100000x1.Idx → BitVec 32) (ix2 n 0)
      = (Wv (Proc.devRef .tc main_arg2) : S100000.Idx → BitVec 32) (ix1 n) := by
  refine Eq.trans (congrFun ?_ _) (shapeCast_a_a1_apply _ shapeCasts_S100000_S100000x1 n 0)
  after_results
  rfl

/-- The mean over each graph from the pooled sums and counts, then the last linear map and its bias. -/
def headTerm (P : FVec Ideal S128x9 .f32) (Wf : FVec Ideal S8x3 .f32) (bf : FVec Ideal S3 .f32) : FVec Ideal S64x3 .f32 :=
  addf
    (Host.dotGeneral (F := Ideal) dot_S64x8_S8x3_S64x3_1_0_0_1_n_n none
      (Host.divf (extractStridedSlice S64x8 ![0, 0] P slices_S128x9_S64x8_0_0)
        (broadcastInDim S64x8 ![0, 1] bcast_S64x1_S64x8_0_1
          (maximumf (extractStridedSlice S64x1 ![0, 8] P slices_S128x9_S64x1_0_8)
            (broadcastInDim S64x1 ![] bcast_S_S64x1 (constant (F := Ideal) S_ .f32 0x3F800000#32)))))
      Wf)
    (broadcastInDim S64x3 ![0, 1] bcast_S1x3_S64x3_0_1 (broadcastInDim S1x3 ![1] bcast_S3_S1x3_1 bf))

/-- At graph `g`, output `j`: each feature's sum over the graph divided by the graph's size, times the weight, plus the bias. -/
theorem headTerm_apply (P : FVec Ideal S128x9 .f32) (Wf : FVec Ideal S8x3 .f32) (bf : FVec Ideal S3 .f32)
    (g : Fin 64) (j : Fin 3) :
    headTerm P Wf bf (ix2 g j)
      = (0 + ∑ k : Fin 8, Ideal.div (P (ix2 ⟨g.val, by omega⟩ ⟨k.val, by omega⟩)) (max (P (ix2 ⟨g.val, by omega⟩ 8)) 1)
            * Wf (ix2 k j)) + bf (ix1 j) := by
  unfold headTerm
  rw [addf_apply, broadcastInDim_oneRow_apply, bcast_row]
  refine congrArg (· + bf (ix1 j)) ((StackMember.dotGeneral_plain_apply none _ Wf g j).trans ((zero_add _).symm.trans ?_))
  refine congrArg (fun t => (0 : EReal) + t) (Finset.sum_congr rfl fun k _ => ?_)
  rw [hostDivf_apply, bcast_cols, maximumf_apply, splat_apply, Ideal.ofBits_one_f32,
    extractStridedSlice_apply _ P slices_S128x9_S64x8_0_0 (ix2 g k) (ix2 ⟨g.val, by omega⟩ ⟨k.val, by omega⟩)
      fun | ⟨0, _⟩ => (Nat.zero_add _).symm | ⟨1, _⟩ => (Nat.zero_add _).symm,
    extractStridedSlice_apply _ P slices_S128x9_S64x1_0_8 (ix2 g (0 : Fin 1)) (ix2 ⟨g.val, by omega⟩ 8)
      fun | ⟨0, _⟩ => (Nat.zero_add _).symm | ⟨1, _⟩ => rfl]

set_option maxHeartbeats 2000000 in
theorem head_read (g : Fin 64) (j : Fin 3) :
    (StableHlo.after hostOps4 Wv (Proc.devRef .tc main_v83) : S64x3.Idx → EReal) (ix2 g j)
      = (0 + ∑ k : Fin 8,
            Ideal.div ((Wv (Proc.devRef .tc main_v73) : S128x9.Idx → EReal) (ix2 ⟨g.val, by omega⟩ ⟨k.val, by omega⟩))
                (max ((Wv (Proc.devRef .tc main_v73) : S128x9.Idx → EReal) (ix2 ⟨g.val, by omega⟩ 8)) 1)
              * (Wv (Proc.devRef .tc main_arg9) : S8x3.Idx → EReal) (ix2 k j))
          + (Wv (Proc.devRef .tc main_arg10) : S3.Idx → EReal) (ix1 j) := by
  refine Eq.trans (congrFun ?_ _) (headTerm_apply _ _ _ g j)
  after_results
  rfl

end Cert.KernelIdeal.Hand
-- ==== Proof.K.KChar.lean ====
/- The kernel's result as the specification's function of the arguments, layer by layer. -/
import proofs.«414465_j87909390615182_2_alg».proof.Proof.K.Run
import proofs.«414465_j87909390615182_2_alg».proof.Proof.K.Carry
import proofs.«414465_j87909390615182_2_alg».proof.Proof.K.Final0
import proofs.«414465_j87909390615182_2_alg».proof.Proof.K.Final1
import proofs.«414465_j87909390615182_2_alg».proof.Proof.K.Final2
import proofs.«414465_j87909390615182_2_alg».proof.Proof.K.Final3
import proofs.«414465_j87909390615182_2_alg».proof.Proof.K.Pool
import proofs.«414465_j87909390615182_2_alg».proof.Proof.K.HostA
import proofs.«414465_j87909390615182_2_alg».proof.Proof.K.HostB
import proofs.«414465_j87909390615182_2_alg».proof.Proof.M.Spec

noncomputable section

namespace Cert.KernelIdeal.Hand

open Idealize.ShloMosaic Idealize.ShloMosaic.TcCoe Idealize.ShloMosaic.ValueIdx
open Cert.KernelIdeal Cert.KernelIdeal.Gen
open scoped BigOperators

section Data

variable (m : (ℓ : Loc nD τ sig) → Buf (Elt Idealize.ShloMosaic.Ideal) ℓ) (ρ : Dev nD → PrngReg) (c : Dev nD)

abbrev eiL : IVec S2x3200000 32 := m ((c.tc : Thread nD τ).loc main_arg1)

def kSrc : Fin Cert.Spec.Mm → BitVec 32 := fun e => srcK (eiL m c) (ix1 e)
def kDst : Fin Cert.Spec.Mm → BitVec 32 := fun e => dstK (eiL m c) (ix1 e)
def kDis : Fin Cert.Spec.Nn → EReal := Cert.Spec.disOf (fun n => degK (eiL m c) (ix1 n))
def kBatch : Fin Cert.Spec.Nn → BitVec 32 := fun n => (m ((c.tc : Thread nD τ).loc main_arg2) : S100000.Idx → BitVec 32) (ix1 n)

def kX : Fin Cert.Spec.Nn → Fin 3 → EReal := fun n k => (m ((c.tc : Thread nD τ).loc main_arg0) : S100000x3.Idx → EReal) (ix2 n k)
def kW1 : Fin 3 → Fin 32 → EReal := fun k j => (m ((c.tc : Thread nD τ).loc main_arg3) : S3x32.Idx → EReal) (ix2 k j)
def kb1 : Fin 32 → EReal := fun j => (m ((c.tc : Thread nD τ).loc main_arg4) : S32.Idx → EReal) (ix1 j)
def kW2 : Fin 32 → Fin 16 → EReal := fun k j => (m ((c.tc : Thread nD τ).loc main_arg5) : S32x16.Idx → EReal) (ix2 k j)
def kb2 : Fin 16 → EReal := fun j => (m ((c.tc : Thread nD τ).loc main_arg6) : S16.Idx → EReal) (ix1 j)
def kW3 : Fin 16 → Fin 8 → EReal := fun k j => (m ((c.tc : Thread nD τ).loc main_arg7) : S16x8.Idx → EReal) (ix2 k j)
def kb3 : Fin 8 → EReal := fun j => (m ((c.tc : Thread nD τ).loc main_arg8) : S8.Idx → EReal) (ix1 j)
def kWf : Fin 8 → Fin 3 → EReal := fun k j => (m ((c.tc : Thread nD τ).loc main_arg9) : S8x3.Idx → EReal) (ix2 k j)
def kbf : Fin 3 → EReal := fun j => (m ((c.tc : Thread nD τ).loc main_arg10) : S3.Idx → EReal) (ix1 j)

variable (σ : Equiv.Perm (Fin Cert.Spec.Mm))

def kS1 : Fin Cert.Spec.Nn → Fin 32 → EReal :=
  Cert.Spec.kagg (kSrc m c) (kDst m c) σ (Cert.Spec.kraw1 (kDis m c) (kX m c) (kW1 m c))
def kS2 : Fin Cert.Spec.Nn → Fin 16 → EReal :=
  Cert.Spec.kagg (kSrc m c) (kDst m c) σ (Cert.Spec.krawN (kDis m c) (kS1 m c σ) (kb1 m c) (kW2 m c))
def kS3 : Fin Cert.Spec.Nn → Fin 8 → EReal :=
  Cert.Spec.kagg (kSrc m c) (kDst m c) σ (Cert.Spec.krawN (kDis m c) (kS2 m c σ) (kb2 m c) (kW3 m c))

def SortedBy : Prop :=
  (∀ e, (W4 m ρ c (Proc.devRef .tc main_v24) : S3300000.Idx → BitVec 32) (ix1 e) = kSrc m c (σ e))
  ∧ (∀ e, (W4 m ρ c (Proc.devRef .tc main_v31) : S3300000.Idx → BitVec 32) (ix1 e) = kDst m c (σ e))

end Data

theorem kraw1_congr {Din Dout : Nat} {d d' : Fin Cert.Spec.Nn → EReal} {x x' : Fin Cert.Spec.Nn → Fin Din → EReal}
    {W W' : Fin Din → Fin Dout → EReal} (hd : d = d') (hx : x = x') (hW : W = W') :
    Cert.Spec.kraw1 d x W = Cert.Spec.kraw1 d' x' W' := by rw [hd, hx, hW]
theorem krawN_congr {Din Dout : Nat} {d d' : Fin Cert.Spec.Nn → EReal} {s s' : Fin Cert.Spec.Nn → Fin Din → EReal}
    {b b' : Fin Din → EReal} {W W' : Fin Din → Fin Dout → EReal} (hd : d = d') (hs : s = s') (hb : b = b') (hW : W = W') :
    Cert.Spec.krawN d s b W = Cert.Spec.krawN d' s' b' W' := by rw [hd, hs, hb, hW]
theorem kaggS_congr {D : Nat} {a a' b b' : Fin Cert.Spec.Mm → BitVec 32} {u u' : Fin Cert.Spec.Nn → Fin D → EReal}
    (ha : a = a') (hb : b = b') (hu : u = u') : kaggS a b u = kaggS a' b' u' := by rw [ha, hb, hu]
theorem krelu_congr {D : Nat} {d d' : Fin Cert.Spec.Nn → EReal} {s s' : Fin Cert.Spec.Nn → Fin D → EReal} {b b' : Fin D → EReal}
    (hd : d = d') (hs : s = s') (hb : b = b') : Cert.Spec.krelu d s b = Cert.Spec.krelu d' s' b' := by rw [hd, hs, hb]
theorem psum_congr {D : Nat} {t t' : Fin Cert.Spec.Nn → BitVec 32} {h h' : Fin Cert.Spec.Nn → Fin D → EReal}
    (ht : t = t') (hh : h = h') : Cert.Spec.psum t h = Cert.Spec.psum t' h' := by rw [ht, hh]
theorem pcnt_congr {t t' : Fin Cert.Spec.Nn → BitVec 32} (ht : t = t') : Cert.Spec.pcnt t = Cert.Spec.pcnt t' := by rw [ht]

theorem rows2 {α : Type} {a b : Nat} {f g : (⟨2, ![a, b]⟩ : Shape).Idx → α} (h : f = g) :
    (fun (n : Fin a) (k : Fin b) => f (ix2 n k)) = fun n k => g (ix2 n k) := by rw [h]
theorem col0 {α : Type} {a : Nat} {f g : (⟨2, ![a, 1]⟩ : Shape).Idx → α} (h : f = g) :
    (fun n : Fin a => f (ix2 n (0 : Fin 1))) = fun n => g (ix2 n (0 : Fin 1)) := by rw [h]
theorem vec1 {α : Type} {a : Nat} {f g : (⟨1, ![a]⟩ : Shape).Idx → α} (h : f = g) :
    (fun n : Fin a => f (ix1 n)) = fun n => g (ix1 n) := by rw [h]

section Stages

variable (m : (ℓ : Loc nD τ sig) → Buf (Elt Idealize.ShloMosaic.Ideal) ℓ) (ρ : Dev nD → PrngReg) (c : Dev nD)

theorem disAt4 : (fun n : Fin Cert.Spec.Nn => (W4 m ρ c (Proc.devRef .tc main_v32) : S100000x1.Idx → EReal) (ix2 n (0 : Fin 1))) = kDis m c :=
  funext fun n => dis2_read (W0 m ρ c) n
theorem disAt6 : (fun n : Fin Cert.Spec.Nn => (W6 m ρ c (Proc.devRef .tc main_v32) : S100000x1.Idx → EReal) (ix2 n (0 : Fin 1))) = kDis m c :=
  (col0 (α := EReal) (a := 100000) (W6_main_v32 m ρ c)).trans (disAt4 m ρ c)
theorem disAt8 : (fun n : Fin Cert.Spec.Nn => (W8 m ρ c (Proc.devRef .tc main_v32) : S100000x1.Idx → EReal) (ix2 n (0 : Fin 1))) = kDis m c :=
  (col0 (α := EReal) (a := 100000) (W8_main_v32 m ρ c)).trans (disAt4 m ρ c)
theorem disAt10 : (fun n : Fin Cert.Spec.Nn => (W10 m ρ c (Proc.devRef .tc main_v32) : S100000x1.Idx → EReal) (ix2 n (0 : Fin 1))) = kDis m c :=
  (col0 (α := EReal) (a := 100000) (W10_main_v32 m ρ c)).trans (disAt4 m ρ c)

theorem xAt4 : (fun (n : Fin Cert.Spec.Nn) (k : Fin 3) => (W4 m ρ c (Proc.devRef .tc main_arg0) : S100000x3.Idx → EReal) (ix2 n k)) = kX m c :=
  rows2 (α := EReal) (a := 100000) (b := 3) (W4_main_arg0 m ρ c)
theorem w1At4 : (fun (k : Fin 3) (j : Fin 32) => (W4 m ρ c (Proc.devRef .tc main_arg3) : S3x32.Idx → EReal) (ix2 k j)) = kW1 m c :=
  rows2 (α := EReal) (a := 3) (b := 32) (W4_main_arg3 m ρ c)
theorem w2At6 : (fun (k : Fin 32) (j : Fin 16) => (W6 m ρ c (Proc.devRef .tc main_arg5) : S32x16.Idx → EReal) (ix2 k j)) = kW2 m c :=
  rows2 (α := EReal) (a := 32) (b := 16) (W6_main_arg5 m ρ c)
theorem w3At8 : (fun (k : Fin 16) (j : Fin 8) => (W8 m ρ c (Proc.devRef .tc main_arg7) : S16x8.Idx → EReal) (ix2 k j)) = kW3 m c :=
  rows2 (α := EReal) (a := 16) (b := 8) (W8_main_arg7 m ρ c)

variable (σ : Equiv.Perm (Fin Cert.Spec.Mm))

theorem srcAt5 (h : SortedBy m ρ c σ) :
    (fun e : Fin Cert.Spec.Mm => (W5 m ρ c (Proc.devRef .tc main_v24) : S3300000.Idx → BitVec 32) (ix1 e)) = fun e => kSrc m c (σ e) :=
  (vec1 (α := BitVec 32) (a := 3300000) (W5_main_v24 m ρ c)).trans (funext h.1)
theorem dstAt5 (h : SortedBy m ρ c σ) :
    (fun e : Fin Cert.Spec.Mm => (W5 m ρ c (Proc.devRef .tc main_v31) : S3300000.Idx → BitVec 32) (ix1 e)) = fun e => kDst m c (σ e) :=
  (vec1 (α := BitVec 32) (a := 3300000) (W5_main_v31 m ρ c)).trans (funext h.2)
theorem srcAt7 (h : SortedBy m ρ c σ) :
    (fun e : Fin Cert.Spec.Mm => (W7 m ρ c (Proc.devRef .tc main_v24) : S3300000.Idx → BitVec 32) (ix1 e)) = fun e => kSrc m c (σ e) :=
  (vec1 (α := BitVec 32) (a := 3300000) (W7_main_v24 m ρ c)).trans (funext h.1)
theorem dstAt7 (h : SortedBy m ρ c σ) :
    (fun e : Fin Cert.Spec.Mm => (W7 m ρ c (Proc.devRef .tc main_v31) : S3300000.Idx → BitVec 32) (ix1 e)) = fun e => kDst m c (σ e) :=
  (vec1 (α := BitVec 32) (a := 3300000) (W7_main_v31 m ρ c)).trans (funext h.2)
theorem srcAt9 (h : SortedBy m ρ c σ) :
    (fun e : Fin Cert.Spec.Mm => (W9 m ρ c (Proc.devRef .tc main_v24) : S3300000.Idx → BitVec 32) (ix1 e)) = fun e => kSrc m c (σ e) :=
  (vec1 (α := BitVec 32) (a := 3300000) (W9_main_v24 m ρ c)).trans (funext h.1)
theorem dstAt9 (h : SortedBy m ρ c σ) :
    (fun e : Fin Cert.Spec.Mm => (W9 m ρ c (Proc.devRef .tc main_v31) : S3300000.Idx → BitVec 32) (ix1 e)) = fun e => kDst m c (σ e) :=
  (vec1 (α := BitVec 32) (a := 3300000) (W9_main_v31 m ρ c)).trans (funext h.2)

theorem raw1_eq : (fun (n : Fin Cert.Spec.Nn) (k : Fin 32) => (W5 m ρ c (Proc.devRef .tc main_v33) : S100000x32.Idx → EReal) (ix2 n k))
    = Cert.Spec.kraw1 (kDis m c) (kX m c) (kW1 m c) := by
  have h5 : (W5 m ρ c (Proc.devRef .tc main_v33) : S100000x32.Idx → EReal) = _ := (W5_arr m ρ c 3).trans (final0 (V4 m ρ) c)
  funext n k
  rw [h5]
  exact congrFun (congrFun (kraw1_congr (disAt4 m ρ c) (xAt4 m ρ c) (w1At4 m ρ c)) n) k

theorem s1_eq (h : SortedBy m ρ c σ) :
    (fun (n : Fin Cert.Spec.Nn) (k : Fin 32) => (W6 m ρ c (Proc.devRef .tc main_v44) : S100000x32.Idx → EReal) (ix2 n k)) = kS1 m c σ := by
  funext n k
  refine (agg1_read (W5 m ρ c) n k).trans ?_
  exact congrFun (congrFun ((kaggS_congr (srcAt5 m ρ c σ h) (dstAt5 m ρ c σ h) (raw1_eq m ρ c)).trans (kaggS_perm _ _ σ _)) n) k
theorem b1_eq : (fun k : Fin 32 => (W6 m ρ c (Proc.devRef .tc main_v45) : S1x32.Idx → EReal) (ix2 (0 : Fin 1) k)) = kb1 m c :=
  funext fun k => (bias1_read (W5 m ρ c) k).trans (congrFun (W5_main_arg4 m ρ c) (ix1 k))

theorem raw2_eq (h : SortedBy m ρ c σ) :
    (fun (n : Fin Cert.Spec.Nn) (k : Fin 16) => (W7 m ρ c (Proc.devRef .tc main_v46) : S100000x16.Idx → EReal) (ix2 n k))
      = Cert.Spec.krawN (kDis m c) (kS1 m c σ) (kb1 m c) (kW2 m c) := by
  have h7 : (W7 m ρ c (Proc.devRef .tc main_v46) : S100000x16.Idx → EReal) = _ := (W7_arr m ρ c 4).trans (final1 (V6 m ρ) c)
  funext n k
  rw [h7]
  exact congrFun (congrFun (krawN_congr (disAt6 m ρ c) (s1_eq m ρ c σ h) (b1_eq m ρ c) (w2At6 m ρ c)) n) k

theorem s2_eq (h : SortedBy m ρ c σ) :
    (fun (n : Fin Cert.Spec.Nn) (k : Fin 16) => (W8 m ρ c (Proc.devRef .tc main_v57) : S100000x16.Idx → EReal) (ix2 n k)) = kS2 m c σ := by
  funext n k
  refine (agg2_read (W7 m ρ c) n k).trans ?_
  exact congrFun (congrFun ((kaggS_congr (srcAt7 m ρ c σ h) (dstAt7 m ρ c σ h) (raw2_eq m ρ c σ h)).trans (kaggS_perm _ _ σ _)) n) k
theorem b2_eq : (fun k : Fin 16 => (W8 m ρ c (Proc.devRef .tc main_v58) : S1x16.Idx → EReal) (ix2 (0 : Fin 1) k)) = kb2 m c :=
  funext fun k => (bias2_read (W7 m ρ c) k).trans (congrFun (W7_main_arg6 m ρ c) (ix1 k))

theorem raw3_eq (h : SortedBy m ρ c σ) :
    (fun (n : Fin Cert.Spec.Nn) (k : Fin 8) => (W9 m ρ c (Proc.devRef .tc main_v59) : S100000x8.Idx → EReal) (ix2 n k))
      = Cert.Spec.krawN (kDis m c) (kS2 m c σ) (kb2 m c) (kW3 m c) := by
  have h7 : (W9 m ρ c (Proc.devRef .tc main_v59) : S100000x8.Idx → EReal) = _ := (W9_arr m ρ c 4).trans (final2 (V8 m ρ) c)
  funext n k
  rw [h7]
  exact congrFun (congrFun (krawN_congr (disAt8 m ρ c) (s2_eq m ρ c σ h) (b2_eq m ρ c) (w3At8 m ρ c)) n) k

theorem s3_eq (h : SortedBy m ρ c σ) :
    (fun (n : Fin Cert.Spec.Nn) (k : Fin 8) => (W10 m ρ c (Proc.devRef .tc main_v70) : S100000x8.Idx → EReal) (ix2 n k)) = kS3 m c σ := by
  funext n k
  refine (agg3_read (W9 m ρ c) n k).trans ?_
  exact congrFun (congrFun ((kaggS_congr (srcAt9 m ρ c σ h) (dstAt9 m ρ c σ h) (raw3_eq m ρ c σ h)).trans (kaggS_perm _ _ σ _)) n) k
theorem b3_eq : (fun k : Fin 8 => (W10 m ρ c (Proc.devRef .tc main_v72) : S1x8.Idx → EReal) (ix2 (0 : Fin 1) k)) = kb3 m c :=
  funext fun k => (bias3_read (W9 m ρ c) k).trans (congrFun (W9_main_arg8 m ρ c) (ix1 k))

theorem batchAt10 : (fun n : Fin Cert.Spec.Nn => (W10 m ρ c (Proc.devRef .tc main_v71) : S100000x1.Idx → BitVec 32) (ix2 n (0 : Fin 1))) = kBatch m c :=
  funext fun n => (batch2_read (W9 m ρ c) n).trans (congrFun (W9_main_arg2 m ρ c) (ix1 n))

theorem pool_eq (h : SortedBy m ρ c σ) (g : Fin Cert.Spec.Gg) :
    (∀ k : Fin 8, (W11 m ρ c (Proc.devRef .tc main_v73) : S128x9.Idx → EReal) (ix2 (⟨g.val, Nat.lt_trans g.isLt (by decide)⟩ : Fin 128) (⟨k.val, Nat.lt_succ_of_lt k.isLt⟩ : Fin 9))
        = Cert.Spec.psum (kBatch m c) (Cert.Spec.krelu (kDis m c) (kS3 m c σ) (kb3 m c)) g k)
    ∧ (W11 m ρ c (Proc.devRef .tc main_v73) : S128x9.Idx → EReal) (ix2 (⟨g.val, Nat.lt_trans g.isLt (by decide)⟩ : Fin 128) (8 : Fin 9))
        = Cert.Spec.pcnt (kBatch m c) g := by
  have h11 : (W11 m ρ c (Proc.devRef .tc main_v73) : S128x9.Idx → EReal) = _ := (W11_arr m ρ c 4).trans (final3 (V10 m ρ) c)
  have hl := acc3_last (V10 m ρ) c g
  have e := psum_congr (batchAt10 m ρ c) (krelu_congr (disAt10 m ρ c) (s3_eq m ρ c σ h) (b3_eq m ρ c))
  rw [h11]
  exact ⟨fun k => (hl.1 k).trans (congrFun (congrFun e g) k), hl.2.trans (congrFun (pcnt_congr (batchAt10 m ρ c)) g)⟩

end Stages

theorem ker_char (m : (ℓ : Loc nD τ sig) → Buf (Elt Idealize.ShloMosaic.Ideal) ℓ) (ρ : Dev nD → PrngReg) (c : Dev nD) :
    ∃ σ : Equiv.Perm (Fin Cert.Spec.Mm), (W12 (F := Idealize.ShloMosaic.Ideal) m ρ c (Proc.devRef .tc main_v83) : S64x3.Idx → EReal) = fun i =>
      Cert.Spec.kerOut (fun e => srcK (m ((c.tc : Thread nD τ).loc main_arg1)) (ix1 e)) (fun e => dstK (m ((c.tc : Thread nD τ).loc main_arg1)) (ix1 e))
        (Cert.Spec.disOf (fun n => degK (m ((c.tc : Thread nD τ).loc main_arg1)) (ix1 n))) σ
        (fun n => (m ((c.tc : Thread nD τ).loc main_arg2) : S100000.Idx → BitVec 32) (ix1 n))
        (fun n k => (m ((c.tc : Thread nD τ).loc main_arg0) : S100000x3.Idx → EReal) (ix2 n k))
        (fun k j => (m ((c.tc : Thread nD τ).loc main_arg3) : S3x32.Idx → EReal) (ix2 k j)) (fun j => (m ((c.tc : Thread nD τ).loc main_arg4) : S32.Idx → EReal) (ix1 j))
        (fun k j => (m ((c.tc : Thread nD τ).loc main_arg5) : S32x16.Idx → EReal) (ix2 k j)) (fun j => (m ((c.tc : Thread nD τ).loc main_arg6) : S16.Idx → EReal) (ix1 j))
        (fun k j => (m ((c.tc : Thread nD τ).loc main_arg7) : S16x8.Idx → EReal) (ix2 k j)) (fun j => (m ((c.tc : Thread nD τ).loc main_arg8) : S8.Idx → EReal) (ix1 j))
        (fun k j => (m ((c.tc : Thread nD τ).loc main_arg9) : S8x3.Idx → EReal) (ix2 k j)) (fun j => (m ((c.tc : Thread nD τ).loc main_arg10) : S3.Idx → EReal) (ix1 j))
        ⟨(i 0).val, (i 0).isLt⟩ ⟨(i 1).val, (i 1).isLt⟩ := by
  obtain ⟨σ, hs, hd⟩ := sorted_read (W0 m ρ c)
  have h : SortedBy m ρ c σ := ⟨hs, hd⟩
  refine ⟨σ, funext fun i => ?_⟩
  obtain ⟨g, j, rfl⟩ : ∃ (g : Fin 64) (j : Fin 3), i = ix2 g j := ⟨i 0, i 1, eq_ix2 i⟩
  refine (head_read (W11 m ρ c) g j).trans ?_
  obtain ⟨hsum, hcnt⟩ := pool_eq m ρ c σ h g
  rw [hcnt, W11_main_arg9 m ρ c, W11_main_arg10 m ρ c]
  show _ = Cert.Spec.head (kBatch m c) (Cert.Spec.krelu (kDis m c) (kS3 m c σ) (kb3 m c)) (kWf m c) (kbf m c) g j
  unfold Cert.Spec.head
  refine congrArg₂ (· + ·) (congrArg (fun s => (0 : EReal) + s) (Finset.sum_congr rfl fun k _ => ?_)) rfl
  rw [hsum k]
  rfl

end Cert.KernelIdeal.Hand

end
-- ==== Proof.M.RefChar.lean ====
import proofs.«414465_j87909390615182_2_alg».proof.Proof.RefRunP
import proofs.«414465_j87909390615182_2_alg».proof.Proof.M.Spec
import proofs.«414465_j87909390615182_2_alg».proof.Proof.LibGatherRows
import proofs.«414465_j87909390615182_2_alg».proof.Proof.LibScatterRows
import proofs.«414465_j87909390615182_2_alg».proof.Proof.LibGcnAlgebra
import proofs.«414465_j87909390615182_2_alg».proof.Proof.LibArgsortPerm
import proofs.«414465_j87909390615182_2_alg».proof.Proof.LibIndexReads
import Idealize.ShloMosaic.Lib.IdealHost
import Idealize.ShloMosaic.Lib.StackMember
import Idealize.ShloMosaic.Lib.KernelVsHost

noncomputable section

namespace Cert.RefChar

open Cert.ReferenceIdeal Cert.ReferenceIdeal.Gen Idealize.ShloMosaic Idealize.ShloMosaic.ValueIdx
  Cert.Lib.IndexReads Cert.Lib.ArgsortPerm Cert.Lib.ScatterRows Cert.Lib.GatherRows

def srcA (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

def dstA (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

def degA (ei : IVec S2x3200000 32) : FVec Ideal S100000 .f32 :=
  Host.scatterAdd (F := Ideal) scatter_S100000_S3300000x1_S3300000_n_0_0_1 (broadcastInDim S100000 ![] bcast_S_S100000 (constant S_ .f32 0x00000000#32)) (broadcastInDim S3300000x1 ![0] bcast_S3300000_S3300000x1_0 (dstA ei)) (broadcastInDim S3300000 ![] bcast_S_S3300000 (constant S_ .f32 0x3F800000#32))

def disT (deg : FVec Ideal S100000 .f32) : FVec Ideal S100000 .f32 :=
  select (cmpf (F := Ideal) .ogt deg (broadcastInDim S100000 ![] bcast_S_S100000 (constant S_ .f32 0x00000000#32))) (Host.rsqrt (maximumf deg (broadcastInDim S100000 ![] bcast_S_S100000 (constant S_ .f32 0x3F800000#32)))) (broadcastInDim S100000 ![] bcast_S_S100000 (id (constant S_ .f32 0x00000000#32)))

def nrmT (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

def normT (srcV dstV : IVec S3300000 32) (disV : FVec Ideal S100000 .f32) :
    FVec Ideal S3300000 .f32 :=
  mulf (Host.gather gather_S100000_S3300000x1_S3300000_n_0_n_n_0_1_1 disV (broadcastInDim S3300000x1 ![0] bcast_S3300000_S3300000x1_0 (nrmT srcV))) (Host.gather gather_S100000_S3300000x1_S3300000_n_0_n_n_0_1_1 disV (broadcastInDim S3300000x1 ![0] bcast_S3300000_S3300000x1_0 (nrmT dstV)))

/-- Wrapping the word of message `e` and clamping it into the table gives the specification's `row`. -/
theorem row_eq (v : IVec S3300000 32) (e : Fin 3300000) :
    (⟨min ((broadcastInDim S3300000x1 ![0] bcast_S3300000_S3300000x1_0 (nrmT v)) (ix2 e 0)).toInt.toNat (100000 - 1), by omega⟩ : Fin 100000)
      = Cert.Spec.row (v (ix1 e)) :=
  Fin.ext (congrArg (fun w : BitVec 32 => min w.toInt.toNat (100000 - 1))
    ((broadcast_column_apply ![0] rfl _ _ e 0).trans (wrap_word (v (ix1 e)) _)))

theorem normT_apply (srcV dstV : IVec S3300000 32) (disV : FVec Ideal S100000 .f32) (e : Fin 3300000) :
    normT srcV dstV disV (ix1 e)
      = disV (ix1 (Cert.Spec.row (srcV (ix1 e)))) * disV (ix1 (Cert.Spec.row (dstV (ix1 e)))) := by
  unfold normT
  rw [mulf_apply]
  iterate 2 rw [gather_vec (by decide) gather_S100000_S3300000x1_S3300000_n_0_n_n_0_1_1 rfl rfl rfl rfl rfl, row_eq]

theorem disT_fun (deg : FVec Ideal S100000 .f32) :
    (fun n : Fin 100000 => disT deg (ix1 n)) = Cert.Spec.disOf (fun n => deg (ix1 n)) :=
  funext fun n => Cert.Lib.GcnAlgebra.dis_vec deg _ _ _ (ix1 n) Ideal.ofBits_zero_f32 Ideal.ofBits_one_f32 Ideal.ofBits_zero_f32

section Layer

variable {K D : Nat}
  (ws : ScatterDims.WF ⟨2, ![100000, D]⟩ S3300000x1 ⟨2, ![3300000, D]⟩ [1] [0] [0] 1)
  (wg : GatherDims.WF ⟨2, ![100000, D]⟩ S3300000x1 ⟨2, ![3300000, D]⟩ [1] [0] [] [0] [] 1 ![1, D])
  (hz : S_.BroadcastsInDim ⟨2, ![100000, D]⟩ ![]) (hc : S3300000x1.BroadcastsInDim ⟨2, ![3300000, D]⟩ ![0, 1])
  (hb : (⟨1, ![D]⟩ : Shape).BroadcastsInDim ⟨2, ![1, D]⟩ ![1]) (hr : (⟨2, ![1, D]⟩ : Shape).BroadcastsInDim ⟨2, ![100000, D]⟩ ![0, 1])
  (srcV dstV : IVec S3300000 32) (disV : FVec Ideal S100000 .f32)
  (H : FVec Ideal ⟨2, ![100000, K]⟩ .f32) (W : FVec Ideal ⟨2, ![K, D]⟩ .f32) (b : FVec Ideal ⟨1, ![D]⟩ .f32)

/-- One layer of any width `K → D`, as the program spells it. -/
def layerT : FVec Ideal ⟨2, ![100000, D]⟩ .f32 :=
  maximumf (addf (Host.scatterAdd ⟨[1], [0], [0], 1, ws⟩ (broadcastInDim _ ![] hz (constant S_ .f32 0x00000000#32)) (broadcastInDim S3300000x1 ![0] bcast_S3300000_S3300000x1_0 dstV) (mulf (Host.gather ⟨[1], [0], [], [], [0], 1, ![1, D], wg⟩ (Host.dotGeneral (DotDims.plain 100000 K D) none H W) (broadcastInDim S3300000x1 ![0] bcast_S3300000_S3300000x1_0 (nrmT srcV))) (broadcastInDim _ ![0, 1] hc (broadcastInDim S3300000x1 ![0] bcast_S3300000_S3300000x1_0 (normT srcV dstV disV))))) (broadcastInDim _ ![0, 1] hr (broadcastInDim _ ![1] hb b))) (broadcastInDim _ ![] hz (constant S_ .f32 0x00000000#32))

variable {ws wg hz hc hb hr srcV dstV H W b} in
/-- Read by coordinates, over features `h`, it is the specification's layer: the scatter is the sum over the messages into the node, the gather reads the source's row. -/
theorem layerT_fun {deg : FVec Ideal S100000 .f32} {h : Fin 100000 → Fin K → EReal} (hH : (fun n k => H (ix2 n k)) = h) :
    (fun n j => layerT ws wg hz hc hb hr srcV dstV (disT deg) H W b (ix2 n j))
      = Cert.Spec.layer (fun e => srcV (ix1 e)) (fun e => dstV (ix1 e)) (Cert.Spec.disOf (fun n => deg (ix1 n)))
          h (fun k j => W (ix2 k j)) (fun j => b (ix1 j)) := by
  subst hH
  rw [← disT_fun deg]
  funext n j
  unfold layerT
  rw [maximumf_apply, addf_apply, scatterAdd_rows2 ⟨[1], [0], [0], 1, ws⟩ rfl rfl rfl rfl, splat_apply,
    Ideal.ofBits_zero_f32, broadcastInDim_oneRow_apply, bcast_row]
  refine congrArg (fun t => max (0 + t + b (ix1 j)) 0) ?_
  refine Finset.sum_congr (Finset.filter_congr fun e _ => by rw [broadcast_column_apply ![0] rfl]) fun e _ => ?_
  rw [mulf_apply, gather_rows2 (by decide) ⟨[1], [0], [], [], [0], 1, ![1, D], wg⟩ rfl rfl rfl rfl rfl, row_eq,
    bcast_cols, broadcast_column_apply ![0] rfl, normT_apply]
  exact congrArg (· * _) ((StackMember.dotGeneral_plain_apply none H W _ j).trans (zero_add _).symm)

end Layer

def headT (batch : IVec S100000 32) (H : FVec Ideal S100000x8 .f32)
    (Wf : FVec Ideal S8x3 .f32) (bf : FVec Ideal S3 .f32) : FVec Ideal S64x3 .f32 :=
  addf (Host.dotGeneral dot_S64x8_S8x3_S64x3_1_0_0_1_n_n none (Host.divf (Host.scatterAdd scatter_S64x8_S100000x1_S100000x8_1_0_0_1 (broadcastInDim S64x8 ![] bcast_S_S64x8 (constant S_ .f32 0x00000000#32)) (broadcastInDim S100000x1 ![0] bcast_S100000_S100000x1_0 batch) H) (broadcastInDim S64x8 ![0, 1] bcast_S64x1_S64x8_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))) Wf) (broadcastInDim S64x3 ![0, 1] bcast_S1x3_S64x3_0_1 (broadcastInDim S1x3 ![1] bcast_S3_S1x3_1 bf))

/-- Read by coordinates the head is the specification's: each graph's nodes added, divided by the graph's size, then the last linear map and bias. -/
theorem headT_apply (batch : IVec S100000 32) (H : FVec Ideal S100000x8 .f32) (Wf : FVec Ideal S8x3 .f32) (bf : FVec Ideal S3 .f32)
    (g : Fin 64) (j : Fin 3) :
    headT batch H Wf bf (ix2 g j)
      = Cert.Spec.head (fun n => batch (ix1 n)) (fun n k => H (ix2 n k)) (fun k j => Wf (ix2 k j)) (fun j => bf (ix1 j)) g j := by
  unfold headT
  rw [addf_apply, broadcastInDim_oneRow_apply, bcast_row]
  refine congrArg (fun t => t + bf (ix1 j)) ?_
  refine (StackMember.dotGeneral_plain_apply none _ Wf g j).trans ((zero_add _).symm.trans ?_)
  refine congrArg (fun t => (0 : EReal) + t) (Finset.sum_congr rfl fun k _ => ?_)
  rw [hostDivf_apply, scatterAdd_rows2 scatter_S64x8_S100000x1_S100000x8_1_0_0_1 rfl rfl rfl rfl, bcast_cols, broadcast_column_apply ![0] rfl,
    maximumf_apply, scatterAdd_vec scatter_S64_S100000x1_S100000_n_0_0_1 rfl rfl rfl rfl, splat_apply, splat_apply, splat_apply,
    Ideal.ofBits_zero_f32, Ideal.ofBits_one_f32]
  exact congrArg₂ (fun s t => Ideal.div (0 + s) (max (0 + t) 1) * Wf (ix2 k j))
    (Finset.sum_congr (Finset.filter_congr fun n _ => by rw [broadcast_column_apply ![0] rfl]) fun _ _ => rfl)
    (Finset.sum_congr (Finset.filter_congr fun n _ => by rw [broadcast_column_apply ![0] rfl]) fun _ _ => Ideal.ofBits_one_f32)

/-- The reference program's result is the head of three layers of its argument arrays. -/
theorem ref_char (m : (ℓ : Loc nD τ sig) → Buf (Elt Ideal) ℓ) (c : Dev nD) :
    (Cert.ReferenceIdeal.ValueP.res_main_v165 (F := Ideal) m c : S64x3.Idx → EReal) = fun i =>
      Cert.Spec.refOut (fun e => srcA (m ((c.tc : Thread nD τ).loc main_arg1)) (ix1 e)) (fun e => dstA (m ((c.tc : Thread nD τ).loc main_arg1)) (ix1 e))
        (Cert.Spec.disOf (fun n => degA (m ((c.tc : Thread nD τ).loc main_arg1)) (ix1 n))) (fun n => (m ((c.tc : Thread nD τ).loc main_arg2)) (ix1 n))
        (fun n k => (m ((c.tc : Thread nD τ).loc main_arg0)) (ix2 n k)) (fun k j => (m ((c.tc : Thread nD τ).loc main_arg3)) (ix2 k j)) (fun j => (m ((c.tc : Thread nD τ).loc main_arg4)) (ix1 j))
        (fun k j => (m ((c.tc : Thread nD τ).loc main_arg5)) (ix2 k j)) (fun j => (m ((c.tc : Thread nD τ).loc main_arg6)) (ix1 j)) (fun k j => (m ((c.tc : Thread nD τ).loc main_arg7)) (ix2 k j)) (fun j => (m ((c.tc : Thread nD τ).loc main_arg8)) (ix1 j))
        (fun k j => (m ((c.tc : Thread nD τ).loc main_arg9)) (ix2 k j)) (fun j => (m ((c.tc : Thread nD τ).loc main_arg10)) (ix1 j)) ⟨(i 0).val, (i 0).isLt⟩ ⟨(i 1).val, (i 1).isLt⟩ := by
  funext i
  obtain ⟨g, j, rfl⟩ : ∃ (g : Fin 64) (j : Fin 3), i = ix2 g j := ⟨i 0, i 1, eq_ix2 i⟩
  exact (headT_apply _ _ _ _ g j).trans (congrArg (fun h => Cert.Spec.head _ h _ _ g j)
    (layerT_fun (layerT_fun (layerT_fun rfl))))

end Cert.RefChar

end
-- ==== Proof.M.Bridge.lean ====
/- The two arrangements of the specification agree, whatever the order of the messages. -/
import proofs.«414465_j87909390615182_2_alg».proof.Proof.M.Spec
import proofs.«414465_j87909390615182_2_alg».proof.Proof.LibGcnAlgebra

namespace Cert.Bridge

open Idealize.ShloMosaic Cert.Spec Cert.Lib.GcnAlgebra

theorem row_of_toInt_eq (v : BitVec 32) (n : Fin Nn) (h : v.toInt = (n.val : ℤ)) : row v = n := by
  have hn : n.val < 100000 := n.isLt
  apply Fin.ext
  show min (nrm Nn v).toInt.toNat (Nn - 1) = n.val
  have hnn : ¬ v.toInt < 0 := by rw [h]; omega
  unfold nrm
  rw [if_neg hnn, h, Int.toNat_natCast]
  show min n.val (100000 - 1) = n.val
  omega

theorem disOf_nonneg (deg : Fin Nn → EReal) (n : Fin Nn) : 0 ≤ disOf deg n := dis_nonneg (deg n)

theorem disOf_ne_top (deg : Fin Nn → EReal) (n : Fin Nn) : disOf deg n ≠ ⊤ := dis_ne_top (deg n)

section Layers

variable (src dst : Fin Mm → BitVec 32) (dis : Fin Nn → EReal) (h0 : ∀ n, 0 ≤ dis n) (h1 : ∀ n, dis n ≠ ⊤)
  (σ : Equiv.Perm (Fin Mm))

include h0 h1

theorem klayer1_eq {Din Dout : Nat} (x : Fin Nn → Fin Din → EReal) (W : Fin Din → Fin Dout → EReal) (b : Fin Dout → EReal) :
    krelu dis (kagg src dst σ (kraw1 dis x W)) b = layer src dst dis x W b := by
  funext n k
  have e : dis n * kagg src dst σ (kraw1 dis x W) n k = agg src dst dis (lin x W) n k :=
    agg_eq dis h0 h1 src dst σ row row_of_toInt_eq (kraw1 dis x W) (lin x W) (fun _ _ => rfl) n k
  show max (dis n * kagg src dst σ (kraw1 dis x W) n k + b k) 0 = max (agg src dst dis (lin x W) n k + b k) 0
  rw [e]

theorem klayerN_eq {Din Dout : Nat} (s : Fin Nn → Fin Din → EReal) (b : Fin Din → EReal) (W : Fin Din → Fin Dout → EReal)
    (b' : Fin Dout → EReal) :
    krelu dis (kagg src dst σ (krawN dis s b W)) b' = layer src dst dis (krelu dis s b) W b' := by
  funext n k
  have e : dis n * kagg src dst σ (krawN dis s b W) n k = agg src dst dis (lin (krelu dis s b) W) n k :=
    agg_eq_left dis h0 h1 src dst σ row row_of_toInt_eq (krawN dis s b W) (lin (krelu dis s b) W) (fun _ _ => rfl) n k
  show max (dis n * kagg src dst σ (krawN dis s b W) n k + b' k) 0
    = max (agg src dst dis (lin (krelu dis s b) W) n k + b' k) 0
  rw [e]

end Layers

theorem ker_eq_ref (src dst : Fin Mm → BitVec 32) (deg : Fin Nn → EReal) (σ : Equiv.Perm (Fin Mm)) (batch : Fin Nn → BitVec 32)
    (x : Fin Nn → Fin 3 → EReal) (W1 : Fin 3 → Fin 32 → EReal) (b1 : Fin 32 → EReal) (W2 : Fin 32 → Fin 16 → EReal)
    (b2 : Fin 16 → EReal) (W3 : Fin 16 → Fin 8 → EReal) (b3 : Fin 8 → EReal) (Wf : Fin 8 → Fin 3 → EReal) (bf : Fin 3 → EReal) :
    kerOut src dst (disOf deg) σ batch x W1 b1 W2 b2 W3 b3 Wf bf
      = refOut src dst (disOf deg) batch x W1 b1 W2 b2 W3 b3 Wf bf := by
  have h0 := disOf_nonneg deg
  have h1 := disOf_ne_top deg
  show head batch (krelu (disOf deg) (kagg src dst σ (krawN (disOf deg) (kagg src dst σ (krawN (disOf deg)
      (kagg src dst σ (kraw1 (disOf deg) x W1)) b1 W2)) b2 W3)) b3) Wf bf
    = head batch (layer src dst (disOf deg) (layer src dst (disOf deg) (layer src dst (disOf deg) x W1 b1) W2 b2) W3 b3) Wf bf
  rw [klayerN_eq src dst (disOf deg) h0 h1 σ, klayerN_eq src dst (disOf deg) h0 h1 σ, klayer1_eq src dst (disOf deg) h0 h1 σ]

end Cert.Bridge
-- ==== Proof.M.Top.lean ====
/- The kernel's result is the reference's: both are the specification's output at arguments holding the same contents. -/
import proofs.«414465_j87909390615182_2_alg».proof.Proof.K.KChar
import proofs.«414465_j87909390615182_2_alg».proof.Proof.M.RefChar
import proofs.«414465_j87909390615182_2_alg».proof.Proof.M.Bridge
import proofs.«414465_j87909390615182_2_alg».proof.Proof.RefRunP
import Idealize.ShloMosaic.PureOps.Ideal

noncomputable section

namespace Cert.Top

open Idealize.ShloMosaic Idealize.ShloMosaic.TcCoe Idealize.SL.Sem Idealize.ShloMosaic.ValueIdx

theorem srcK_eq_srcA (ei : IVec Cert.KernelIdeal.S2x3200000 32) : Cert.KernelIdeal.Hand.srcK ei = Cert.RefChar.srcA ei := rfl

theorem dstK_eq_dstA (ei : IVec Cert.KernelIdeal.S2x3200000 32) : Cert.KernelIdeal.Hand.dstK ei = Cert.RefChar.dstA ei := rfl

theorem degK_eq_degA (ei : IVec Cert.KernelIdeal.S2x3200000 32) : Cert.KernelIdeal.Hand.degK ei = Cert.RefChar.degA ei := rfl

theorem kernel_eq_of_char (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    Cert.KernelIdeal.Hand.W12 (F := Ideal) m ρ c (Proc.devRef .tc Cert.KernelIdeal.main_v83) = Cert.ReferenceIdeal.ValueP.res_main_v165 (F := Ideal) m' c := by
  obtain ⟨σ, hk⟩ := Cert.KernelIdeal.Hand.ker_char m ρ c
  obtain ⟨a0, a1, a2, a3, a4, a5, a6, a7, a8, a9, a10⟩ := hagree c
  refine hk.trans (Eq.trans ?_ (Cert.RefChar.ref_char m' c).symm)
  funext i
  rw [Cert.Bridge.ker_eq_ref, a0, a1, a2, a3, a4, a5, a6, a7, a8, a9, a10, srcK_eq_srcA, dstK_eq_dstA, degK_eq_degA]

end Cert.Top

end
-- ==== Proof.lean ====
/- The claim: the three programs run to the end, faulting nowhere, their arguments kept; the idealization rewrote nothing; the idealized kernel's result is the reference's. -/
import proofs.«414465_j87909390615182_2_alg».proof.Defs
import proofs.«414465_j87909390615182_2_alg».proof.Proof.Gen.Kernel
import proofs.«414465_j87909390615182_2_alg».proof.Proof.Gen.KernelIdeal
import proofs.«414465_j87909390615182_2_alg».proof.Proof.Gen.ReferenceIdeal
import proofs.«414465_j87909390615182_2_alg».proof.Proof.Gen.Pre_finite_inputs
import proofs.«414465_j87909390615182_2_alg».proof.Proof.Kb.Run
import proofs.«414465_j87909390615182_2_alg».proof.Proof.M.Top
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun r h c => by
    refine ⟨?_, ?_, ?_, ?_, ?_, ?_, ?_, ?_, ?_, ?_, ?_⟩ <;> exact Cert.Kernel.Hand.arg_kept m ρ h c _ (by decide) (by decide))
    (Cert.Kernel.Hand.run_main m ρ)

theorem frame_ki : Cert.frame_KernelIdeal := fun m ρ _ =>
  (θ_run Cert.KernelIdeal.defs _ _).mono (fun r h c => by
    refine ⟨?_, ?_, ?_, ?_, ?_, ?_, ?_, ?_, ?_, ?_, ?_⟩ <;> exact Cert.KernelIdeal.Hand.arg_kept m ρ h c _ (by decide) (by decide))
    (Cert.KernelIdeal.Hand.run_main m ρ)

theorem frame_ri : Cert.frame_ReferenceIdeal := fun m ρ _ =>
  (θ_run Cert.ReferenceIdeal.defs _ _).mono (fun _ h c => (h c).2) (Cert.ReferenceIdeal.ValueP.run (F := Ideal) m ρ)

theorem algebraic : Cert.algebraic_KernelIdeal_ReferenceIdeal := by
  intro m ρ m' ρ' _ hagree
  refine ⟨fun c => Cert.ReferenceIdeal.ValueP.res_main_v165 (F := Ideal) m' c, ?_, Cert.ReferenceIdeal.ValueP.run (F := Ideal) m' ρ'⟩
  refine (θ_run Cert.KernelIdeal.defs _ _).mono (fun r h c => ?_) (Cert.KernelIdeal.Hand.run_main (F := Ideal) m ρ)
  refine ⟨(h c _ (Cert.KernelIdeal.Hand.mem_uc Cert.KernelIdeal.main_v83 (by decide))).trans
      (Cert.Top.kernel_eq_of_char m ρ m' hagree c), ?_, ?_, ?_, ?_, ?_, ?_, ?_, ?_, ?_, ?_, ?_⟩ <;>
    exact Cert.KernelIdeal.Hand.arg_kept m ρ h c _ (by decide) (by decide)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
